-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x500000 : Shape := ⟨2, ![2, 500000]⟩
abbrev S50000 : Shape := ⟨1, ![50000]⟩
abbrev S64x64 : Shape := ⟨2, ![64, 64]⟩
abbrev S128x128 : Shape := ⟨2, ![128, 128]⟩
abbrev S128 : Shape := ⟨1, ![128]⟩
abbrev S192x256 : Shape := ⟨2, ![192, 256]⟩
abbrev S256 : Shape := ⟨1, ![256]⟩
abbrev S256x8 : Shape := ⟨2, ![256, 8]⟩
abbrev S8 : Shape := ⟨1, ![8]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S192x256 : S_.BroadcastsInDim S192x256 (![] : Fin 0 → Fin S192x256.rank)
  reducesTo_S192x256_S_d0_1 : S192x256.ReducesTo [0, 1] S_
  bcast_S_S256 : S_.BroadcastsInDim S256 (![] : Fin 0 → Fin S256.rank)
  reducesTo_S256_S_d0 : S256.ReducesTo [0] S_
  bcast_S_S256x8 : S_.BroadcastsInDim S256x8 (![] : Fin 0 → Fin S256x8.rank)
  reducesTo_S256x8_S_d0_1 : S256x8.ReducesTo [0, 1] S_
  bcast_S_S8 : S_.BroadcastsInDim S8 (![] : Fin 0 → Fin S8.rank)
  reducesTo_S8_S_d0 : S8.ReducesTo [0] S_

variable [Facts]

def fn_part2 {F : FTy → Type} [FloatOps F] (main_arg9 : FVec F S256 .f32) (main_arg10 : FVec F S256x8 .f32) (main_arg11 : FVec F S8 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x8 .f32 := Host.absf main_arg10
  let main_cst_14 : FVec F S_ .f32 := constant S_ .f32 0x7F800000#32
  let main_v40 : FVec F S256x8 .f32 := broadcastInDim S256x8 ![] bcast_S_S256x8 main_cst_14
  let main_v41 : IVec S256x8 1 := cmpf .olt main_v39 main_v40
  let main_c_15 : IVec S_ 1 := constantI S_ 1 1#1
  let main_v42 : IVec S_ 1 := (fun x v => Host.reduce IntOp.andi x v reducesTo_S256x8_S_d0_1 h_S_) main_v41 main_c_15
  let main_v43 : IVec S_ 1 := andi main_v38 main_v42
  let main_v44 : FVec F S8 .f32 := Host.absf main_arg11
  let main_cst_16 : FVec F S_ .f32 := constant S_ .f32 0x7F800000#32
  let main_v45 : FVec F S8 .f32 := broadcastInDim S8 ![] bcast_S_S8 main_cst_16
  let main_v46 : IVec S8 1 := cmpf .olt main_v44 main_v45
  let main_c_17 : IVec S_ 1 := constantI S_ 1 1#1
  let main_v47 : IVec S_ 1 := (fun x v => Host.reduce IntOp.andi x v reducesTo_S8_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S192x256 .f32) (main_arg9 : FVec F S256 .f32) (main_arg10 : FVec F S256x8 .f32) (main_arg11 : FVec F S8 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S192x256 .f32 := Host.absf main_arg8
  let main_cst_10 : FVec F S_ .f32 := constant S_ .f32 0x7F800000#32
  let main_v30 : FVec F S192x256 .f32 := broadcastInDim S192x256 ![] bcast_S_S192x256 main_cst_10
  let main_v31 : IVec S192x256 1 := cmpf .olt main_v29 main_v30
  let main_c_11 : IVec S_ 1 := constantI S_ 1 1#1
  let main_v32 : IVec S_ 1 := (fun x v => Host.reduce IntOp.andi x v reducesTo_S192x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S50000x128 .f32) (main_arg1 : IVec S2x500000 32) (main_arg2 : IVec S50000 32) (main_arg3 : FVec F S64x64 .f32) (main_arg4 : FVec F S128x128 .f32) (main_arg5 : FVec F S128 .f32) (main_arg6 : FVec F S128x128 .f32) (main_arg7 : FVec F S128 .f32) (main_arg8 : FVec F S192x256 .f32) (main_arg9 : FVec F S256 .f32) (main_arg10 : FVec F S256x8 .f32) (main_arg11 : FVec F S8 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S50000x128 : Shape := ⟨2, ![50000, 128]⟩
abbrev S2x500000 : Shape := ⟨2, ![2, 500000]⟩
abbrev S50000 : Shape := ⟨1, ![50000]⟩
abbrev S64x64 : Shape := ⟨2, ![64, 64]⟩
abbrev S128x128 : Shape := ⟨2, ![128, 128]⟩
abbrev S128 : Shape := ⟨1, ![128]⟩
abbrev S192x256 : Shape := ⟨2, ![192, 256]⟩
abbrev S256 : Shape := ⟨1, ![256]⟩
abbrev S256x8 : Shape := ⟨2, ![256, 8]⟩
abbrev S8 : Shape := ⟨1, ![8]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S50000x1 : Shape := ⟨2, ![50000, 1]⟩
abbrev S5000x128 : Shape := ⟨2, ![5000, 128]⟩
abbrev S5000x1 : Shape := ⟨2, ![5000, 1]⟩
abbrev S550000x128 : Shape := ⟨2, ![550000, 128]⟩
abbrev S1x128 : Shape := ⟨2, ![1, 128]⟩
abbrev S64x128 : Shape := ⟨2, ![64, 128]⟩
abbrev S1x64 : Shape := ⟨2, ![1, 64]⟩
abbrev S5000x64 : Shape := ⟨2, ![5000, 64]⟩
abbrev S64 : Shape := ⟨1, ![64]⟩
abbrev S64x1 : Shape := ⟨2, ![64, 1]⟩
abbrev S64x192 : Shape := ⟨2, ![64, 192]⟩
abbrev S1x256 : Shape := ⟨2, ![1, 256]⟩
abbrev S1x8 : Shape := ⟨2, ![1, 8]⟩
abbrev S64x8 : Shape := ⟨2, ![64, 8]⟩
abbrev S64x256 : Shape := ⟨2, ![64, 256]⟩

abbrev nBuf : Space → Nat
  | .hbm => 80
  | .vmem => 32
  | .smem => 0
  | _ => 0

abbrev bufTy : (tb : Table) → Fin (tcTables nBuf tb) → BufTy
  | .hbm, ⟨0, _⟩ => ⟨S50000x128, .f32⟩
  | .hbm, ⟨1, _⟩ => ⟨S2x500000, .i32⟩
  | .hbm, ⟨2, _⟩ => ⟨S50000, .i32⟩
  | .hbm, ⟨3, _⟩ => ⟨S64x64, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S192x256, .f32⟩
  | .hbm, ⟨9, _⟩ => ⟨S256, .f32⟩
  | .hbm, ⟨10, _⟩ => ⟨S256x8, .f32⟩
  | .hbm, ⟨11, _⟩ => ⟨S8, .f32⟩
  | .hbm, ⟨12, _⟩ => ⟨S1x500000, .i32⟩
  | .hbm, ⟨13, _⟩ => ⟨S500000, .i32⟩
  | .hbm, ⟨14, _⟩ => ⟨S1x500000, .i32⟩
  | .hbm, ⟨15, _⟩ => ⟨S500000, .i32⟩
  | .hbm, ⟨16, _⟩ => ⟨S50000, .i32⟩
  | .hbm, ⟨17, _⟩ => ⟨S550000, .i32⟩
  | .hbm, ⟨18, _⟩ => ⟨S550000, .i32⟩
  | .hbm, ⟨19, _⟩ => ⟨S_, .f32⟩
  | .hbm, ⟨20, _⟩ => ⟨S550000, .f32⟩
  | .hbm, ⟨21, _⟩ => ⟨S_, .f32⟩
  | .hbm, ⟨22, _⟩ => ⟨S50000, .f32⟩
  | .hbm, ⟨23, _⟩ => ⟨S550000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .i1⟩
  | .hbm, ⟨28, _⟩ => ⟨S50000, .f32⟩
  | .hbm, ⟨29, _⟩ => ⟨S_, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x128, .f32⟩
  | .hbm, ⟨35, _⟩ => ⟨S_, .i32⟩
  | .hbm, ⟨36, _⟩ => ⟨S550000, .i32⟩
  | .hbm, ⟨37, _⟩ => ⟨S550000, .i1⟩
  | .hbm, ⟨38, _⟩ => ⟨S_, .i32⟩
  | .hbm, ⟨39, _⟩ => ⟨S550000, .i32⟩
  | .hbm, ⟨40, _⟩ => ⟨S550000, .i32⟩
  | .hbm, ⟨41, _⟩ => ⟨S550000, .i32⟩
  | .hbm, ⟨42, _⟩ => ⟨S550000x1, .i32⟩
  | .hbm, ⟨43, _⟩ => ⟨S550000x128, .f32⟩
  | .hbm, ⟨44, _⟩ => ⟨S_, .f32⟩
  | .hbm, ⟨45, _⟩ => ⟨S50000x128, .f32⟩
  | .hbm, ⟨46, _⟩ => ⟨S550000x1, .i32⟩
  | .hbm, ⟨47, _⟩ => ⟨S50000x128, .f32⟩
  | .hbm, ⟨48, _⟩ => ⟨S1x128, .f32⟩
  | .hbm, ⟨49, _⟩ => ⟨S50000x128, .f32⟩
  | .hbm, ⟨50, _⟩ => ⟨S_, .i32⟩
  | .hbm, ⟨51, _⟩ => ⟨S550000, .i32⟩
  | .hbm, ⟨52, _⟩ => ⟨S550000, .i1⟩
  | .hbm, ⟨53, _⟩ => ⟨S_, .i32⟩
  | .hbm, ⟨54, _⟩ => ⟨S550000, .i32⟩
  | .hbm, ⟨55, _⟩ => ⟨S550000, .i32⟩
  | .hbm, ⟨56, _⟩ => ⟨S550000, .i32⟩
  | .hbm, ⟨57, _⟩ => ⟨S550000x1, .i32⟩
  | .hbm, ⟨58, _⟩ => ⟨S550000x128, .f32⟩
  | .hbm, ⟨59, _⟩ => ⟨S_, .f32⟩
  | .hbm, ⟨60, _⟩ => ⟨S50000x128, .f32⟩
  | .hbm, ⟨61, _⟩ => ⟨S550000x1, .i32⟩
  | .hbm, ⟨62, _⟩ => ⟨S50000x128, .f32⟩
  | .hbm, ⟨63, _⟩ => ⟨S50000x1, .i32⟩
  | .hbm, ⟨64, _⟩ => ⟨S1x128, .f32⟩
  | .hbm, ⟨65, _⟩ => ⟨S64x128, .f32⟩
  | .hbm, ⟨66, _⟩ => ⟨S1x64, .f32⟩
  | .hbm, ⟨67, _⟩ => ⟨S64x1, .f32⟩
  | .hbm, ⟨68, _⟩ => ⟨S_, .f32⟩
  | .hbm, ⟨69, _⟩ => ⟨S64x1, .f32⟩
  | .hbm, ⟨70, _⟩ => ⟨S64x1, .f32⟩
  | .hbm, ⟨71, _⟩ => ⟨S64x128, .f32⟩
  | .hbm, ⟨72, _⟩ => ⟨S64x128, .f32⟩
  | .hbm, ⟨73, _⟩ => ⟨S64x192, .f32⟩
  | .hbm, ⟨74, _⟩ => ⟨S1x256, .f32⟩
  | .hbm, ⟨75, _⟩ => ⟨S1x8, .f32⟩
  | .hbm, ⟨76, _⟩ => ⟨S64x8, .f32⟩
  | .hbm, ⟨77, _⟩ => ⟨S_, .f32⟩
  | .hbm, ⟨78, _⟩ => ⟨S64x8, .f32⟩
  | .hbm, ⟨79, _⟩ => ⟨S64x8, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S5000x1, .i32⟩
  | .local _ .vmem, ⟨21, _⟩ => ⟨S5000x1, .i32⟩
  | .local _ .vmem, ⟨22, _⟩ => ⟨S64x128, .f32⟩
  | .local _ .vmem, ⟨23, _⟩ => ⟨S1x64, .f32⟩
  | .local _ .vmem, ⟨24, _⟩ => ⟨S64x128, .f32⟩
  | .local _ .vmem, ⟨25, _⟩ => ⟨S1x64, .f32⟩
  | .local _ .vmem, ⟨26, _⟩ => ⟨S64x192, .f32⟩
  | .local _ .vmem, ⟨27, _⟩ => ⟨S192x256, .f32⟩
  | .local _ .vmem, ⟨28, _⟩ => ⟨S1x256, .f32⟩
  | .local _ .vmem, ⟨29, _⟩ => ⟨S256x8, .f32⟩
  | .local _ .vmem, ⟨30, _⟩ => ⟨S1x8, .f32⟩
  | .local _ .vmem, ⟨31, _⟩ => ⟨S64x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41_0 : Ref sig .tc := ⟨.hbm, 65, rfl⟩
abbrev main_v41_1 : Ref sig .tc := ⟨.hbm, 66, rfl⟩
abbrev main_v42 : Ref sig .tc := ⟨.hbm, 67, rfl⟩
abbrev main_cst_8 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_9 : Ref sig .tc := ⟨.hbm, 77, rfl⟩
abbrev main_v51 : Ref sig .tc := ⟨.hbm, 78, rfl⟩
abbrev main_v52 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg5_0 : Ref sig .tc := ⟨.vmem, 23, rfl⟩
abbrev cc2_scratch0 : Ref sig .tc := ⟨.vmem, 24, rfl⟩
abbrev cc2_scratch1 : Ref sig .tc := ⟨.vmem, 25, rfl⟩
abbrev cc3_stg0_0 : Ref sig .tc := ⟨.vmem, 26, rfl⟩
abbrev cc3_stg1_0 : Ref sig .tc := ⟨.vmem, 27, rfl⟩
abbrev cc3_stg2_0 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg5_0 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc2_sem4_0 : DmaSem sig := 22
abbrev cc2_sem5_0 : DmaSem sig := 23
abbrev cc3_sem0_0 : DmaSem sig := 24
abbrev cc3_sem1_0 : DmaSem sig := 25
abbrev cc3_sem2_0 : DmaSem sig := 26
abbrev cc3_sem3_0 : DmaSem sig := 27
abbrev cc3_sem4_0 : DmaSem sig := 28
abbrev cc3_sem5_0 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v37 : BitVec 1 := Scalar.cmpi .eq arg0 c9_i32
  let v38 : BitVec 32 := Scalar.extui v37
  let c0_i32_18 : BitVec 32 := 0#32
  let v39 : BitVec 1 := Scalar.cmpi .ne v38 c0_i32_18
  v39

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S64x192 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S192x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x8 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x8 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x8 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  iota_S5000x64_d1_w32 : S5000x64.Iotas .tc 32 [1]
  broadcasts_S5000x1_S5000x64 : S5000x1.Broadcasts S5000x64
  natLt_1_32 : 1 < 32
  reduces_S5000x64_S64 : S5000x64.Reduces [0] S64
  shapeCasts_S64_S1x64 : S64.ShapeCasts S1x64
  shapeCasts_S1x64_S64x1 : S1x64.ShapeCasts S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  shapeCasts_S256_S1x256 : S256.ShapeCasts S1x256
  shapeCasts_S8_S1x8 : S8.ShapeCasts S1x8
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192x256_S192x256_0_0 : ∀ a, (![0, 0] : Fin 2 → Nat) a + S192x256.size a ≤ S192x256.size a
  h_S192x256 : 0 < S192x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S64x256 : S1x256.Broadcasts S64x256
  inb_S256x8_S256x8_0_0 : ∀ a, (![0, 0] : Fin 2 → Nat) a + S256x8.size a ≤ S256x8.size a
  h_S256x8 : 0 < S256x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S64x8 : S1x8.Broadcasts S64x8
  inb_S64x8_S64x8_0_0 : ∀ a, (![0, 0] : Fin 2 → Nat) a + S64x8.size a ≤ S64x8.size a
  h_S64x8 : 0 < S64x8.numel
  bcast_S_S64x8 : S_.BroadcastsInDim S64x8 (![] : Fin 0 → Fin S64x8.rank)
  scatter_S50000_S550000x1_S550000_n_0_0_1_wf : ScatterDims.WF S50000 S550000x1 S550000 [] [0] [0] 1
  dot_S5000x128_S128x128_S5000x128_1_0_0_1_n_n_wf : DotDims.WF S5000x128 S128x128 S5000x128 [1] [0] [0] [1] [] []
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  dot_S5000x64_S5000x128_S64x128_0_0_1_1_n_n_wf : DotDims.WF S5000x64 S5000x128 S64x128 [0] [0] [1] [1] [] []
  dot_S64x192_S192x256_S64x256_1_0_0_1_n_n_wf : DotDims.WF S64x192 S192x256 S64x256 [1] [0] [0] [1] [] []
  dot_S64x256_S256x8_S64x8_1_0_0_1_n_n_wf : DotDims.WF S64x256 S256x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S50000x1.size a
  hwx2_3 : ∀ i : grid2.Coords, EltTy.bits .i32 = 32 ∨ (Rect.block (s := S50000x1) S5000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S64x192.size a ≤ S64x192.size a
  hwx3_0 : ∀ i : grid3.Coords, EltTy.bits .f32 = 32 ∨ (Rect.block (s := S64x192) S64x192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S192x256.size a ≤ S192x256.size a
  hwx3_1 : ∀ i : grid3.Coords, EltTy.bits .f32 = 32 ∨ (Rect.block (s := S192x256) S192x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x8.size a ≤ S256x8.size a
  hwx3_3 : ∀ i : grid3.Coords, EltTy.bits .f32 = 32 ∨ (Rect.block (s := S256x8) S256x8.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x8.size a ≤ S1x8.size a
  hwx3_4 : ∀ i : grid3.Coords, EltTy.bits .f32 = 32 ∨ (Rect.block (s := S1x8) S1x8.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x8.size a ≤ S64x8.size a
  hwx3_5 : ∀ i : grid3.Coords, EltTy.bits .f32 = 32 ∨ (Rect.block (s := S64x8) S64x8.size (cc3_transform_5 i) (hinb3_5 i)).WholeWords (EltTy.packing .f32)

variable [Facts₀]

def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x192_S192x256_S64x256_1_0_0_1_n_n : DotDims S64x192 S192x256 S64x256 where
  lhsContracting := [1]
  rhsContracting := [0]
  lhsNonContracting := [0]
  rhsNonContracting := [1]
  lhsBatch := []
  rhsBatch := []
  wf := dot_S64x192_S192x256_S64x256_1_0_0_1_n_n_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v39) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v41_0) S64x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41_1) S1x64.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev idle2 : Fin 6 → grid2.Coords → Bool := fun | 0 => fun _ => false | 1 => fun _ => false | 2 => fun _ => false | 3 => fun _ => false | 4 => fun i => !(k2_cond2 i == 1#1) | 5 => fun i => !(k2_cond2 i == 1#1) | ⟨_ + 6, h⟩ => absurd h (Nat.not_lt.2 (Nat.le_add_left _ _))

abbrev win3_0 : Pipeline.Window sig grid3 :=
  Pipeline.Window.ofSpec (Memref.whole main_v47) S64x192.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_arg8) S192x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v48) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg10) S256x8.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S1x8.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S64x8.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x500000 : Shape := ⟨2, ![2, 500000]⟩
abbrev S50000 : Shape := ⟨1, ![50000]⟩
abbrev S64x64 : Shape := ⟨2, ![64, 64]⟩
abbrev S128x128 : Shape := ⟨2, ![128, 128]⟩
abbrev S128 : Shape := ⟨1, ![128]⟩
abbrev S192x256 : Shape := ⟨2, ![192, 256]⟩
abbrev S256 : Shape := ⟨1, ![256]⟩
abbrev S256x8 : Shape := ⟨2, ![256, 8]⟩
abbrev S8 : Shape := ⟨1, ![8]⟩
abbrev S1x500000 : Shape := ⟨2, ![1, 500000]⟩
abbrev S500000 : Shape := ⟨1, ![500000]⟩
abbrev S550000 : Shape := ⟨1, ![550000]⟩
abbrev S_ : Shape := ⟨0, ![]⟩
abbrev S550000x1 : Shape := ⟨2, ![550000, 1]⟩
abbrev S550000x128 : Shape := ⟨2, ![550000, 128]⟩
abbrev S1x128 : Shape := ⟨2, ![1, 128]⟩
abbrev S64x128 : Shape := ⟨2, ![64, 128]⟩
abbrev S50000x1 : Shape := ⟨2, ![50000, 1]⟩
abbrev S64 : Shape := ⟨1, ![64]⟩
abbrev S64x1 : Shape := ⟨2, ![64, 1]⟩
abbrev S64x192 : Shape := ⟨2, ![64, 192]⟩
abbrev S64x256 : Shape := ⟨2, ![64, 256]⟩
abbrev S1x256 : Shape := ⟨2, ![1, 256]⟩
abbrev S64x8 : Shape := ⟨2, ![64, 8]⟩
abbrev S1x8 : Shape := ⟨2, ![1, 8]⟩

abbrev nBuf : Space → Nat
  | .hbm => 166
  | .vmem => 0
  | .smem => 0
  | _ => 0

abbrev hbmTy0_0 (i : Nat) : BufTy := match i % 128 with
  | 0 => ⟨S50000x128, .f32⟩
  | 1 => ⟨S2x500000, .i32⟩
  | 2 => ⟨S50000, .i32⟩
  | 3 => ⟨S64x64, .f32⟩
  | 4 => ⟨S128x128, .f32⟩
  | 5 => ⟨S128, .f32⟩
  | 6 => ⟨S128x128, .f32⟩
  | 7 => ⟨S128, .f32⟩
  | 8 => ⟨S192x256, .f32⟩
  | 9 => ⟨S256, .f32⟩
  | 10 => ⟨S256x8, .f32⟩
  | 11 => ⟨S8, .f32⟩
  | 12 => ⟨S1x500000, .i32⟩
  | 13 => ⟨S500000, .i32⟩
  | 14 => ⟨S1x500000, .i32⟩
  | 15 => ⟨S500000, .i32⟩
  | 16 => ⟨S50000x128, .f32⟩
  | 17 => ⟨S50000, .i32⟩
  | 18 => ⟨S550000, .i32⟩
  | 19 => ⟨S550000, .i32⟩
  | 20 => ⟨S_, .f32⟩
  | 21 => ⟨S550000, .f32⟩
  | 22 => ⟨S_, .f32⟩
  | 23 => ⟨S50000, .f32⟩
  | 24 => ⟨S550000x1, .i32⟩
  | 25 => ⟨S50000, .f32⟩
  | 26 => ⟨S_, .f32⟩
  | 27 => ⟨S50000, .f32⟩
  | 28 => ⟨S50000, .i1⟩
  | 29 => ⟨S50000, .f32⟩
  | 30 => ⟨S_, .f32⟩
  | 31 => ⟨S_, .f32⟩
  | 32 => ⟨S50000, .f32⟩
  | 33 => ⟨S50000, .f32⟩
  | 34 => ⟨S_, .i32⟩
  | 35 => ⟨S550000, .i32⟩
  | 36 => ⟨S550000, .i1⟩
  | 37 => ⟨S_, .i32⟩
  | 38 => ⟨S550000, .i32⟩
  | 39 => ⟨S550000, .i32⟩
  | 40 => ⟨S550000, .i32⟩
  | 41 => ⟨S550000x1, .i32⟩
  | 42 => ⟨S550000, .f32⟩
  | 43 => ⟨S_, .i32⟩
  | 44 => ⟨S550000, .i32⟩
  | 45 => ⟨S550000, .i1⟩
  | 46 => ⟨S_, .i32⟩
  | 47 => ⟨S550000, .i32⟩
  | 48 => ⟨S550000, .i32⟩
  | 49 => ⟨S550000, .i32⟩
  | 50 => ⟨S550000x1, .i32⟩
  | 51 => ⟨S550000, .f32⟩
  | 52 => ⟨S550000, .f32⟩
  | 53 => ⟨S_, .i32⟩
  | 54 => ⟨S550000, .i32⟩
  | 55 => ⟨S550000, .i1⟩
  | 56 => ⟨S_, .i32⟩
  | 57 => ⟨S550000, .i32⟩
  | 58 => ⟨S550000, .i32⟩
  | 59 => ⟨S550000, .i32⟩
  | 60 => ⟨S550000x1, .i32⟩
  | 61 => ⟨S550000x128, .f32⟩
  | 62 => ⟨S550000x1, .f32⟩
  | 63 => ⟨S550000x128, .f32⟩
  | 64 => ⟨S550000x128, .f32⟩
  | 65 => ⟨S_, .f32⟩
  | 66 => ⟨S50000x128, .f32⟩
  | 67 => ⟨S550000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S50000, .i32⟩
  | 77 => ⟨S550000, .i32⟩
  | 78 => ⟨S550000, .i32⟩
  | 79 => ⟨S_, .f32⟩
  | 80 => ⟨S550000, .f32⟩
  | 81 => ⟨S_, .f32⟩
  | 82 => ⟨S50000, .f32⟩
  | 83 => ⟨S550000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S550000, .i32⟩
  | 95 => ⟨S550000, .i1⟩
  | 96 => ⟨S_, .i32⟩
  | 97 => ⟨S550000, .i32⟩
  | 98 => ⟨S550000, .i32⟩
  | 99 => ⟨S550000, .i32⟩
  | 100 => ⟨S550000x1, .i32⟩
  | 101 => ⟨S550000, .f32⟩
  | 102 => ⟨S_, .i32⟩
  | 103 => ⟨S550000, .i32⟩
  | 104 => ⟨S550000, .i1⟩
  | 105 => ⟨S_, .i32⟩
  | 106 => ⟨S550000, .i32⟩
  | 107 => ⟨S550000, .i32⟩
  | 108 => ⟨S550000, .i32⟩
  | 109 => ⟨S550000x1, .i32⟩
  | 110 => ⟨S550000, .f32⟩
  | 111 => ⟨S550000, .f32⟩
  | 112 => ⟨S_, .i32⟩
  | 113 => ⟨S550000, .i32⟩
  | 114 => ⟨S550000, .i1⟩
  | 115 => ⟨S_, .i32⟩
  | 116 => ⟨S550000, .i32⟩
  | 117 => ⟨S550000, .i32⟩
  | 118 => ⟨S550000, .i32⟩
  | 119 => ⟨S550000x1, .i32⟩
  | 120 => ⟨S550000x128, .f32⟩
  | 121 => ⟨S550000x1, .f32⟩
  | 122 => ⟨S550000x128, .f32⟩
  | 123 => ⟨S550000x128, .f32⟩
  | 124 => ⟨S_, .f32⟩
  | 125 => ⟨S50000x128, .f32⟩
  | 126 => ⟨S550000x1, .i32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .f32⟩
  | 7 => ⟨S64x128, .f32⟩
  | 8 => ⟨S50000x1, .i32⟩
  | 9 => ⟨S64x128, .f32⟩
  | 10 => ⟨S_, .f32⟩
  | 11 => ⟨S50000, .f32⟩
  | 12 => ⟨S_, .f32⟩
  | 13 => ⟨S64, .f32⟩
  | 14 => ⟨S50000x1, .i32⟩
  | 15 => ⟨S64, .f32⟩
  | 16 => ⟨S_, .f32⟩
  | 17 => ⟨S64, .f32⟩
  | 18 => ⟨S64, .f32⟩
  | 19 => ⟨S64x1, .f32⟩
  | 20 => ⟨S64x128, .f32⟩
  | 21 => ⟨S64x128, .f32⟩
  | 22 => ⟨S64x192, .f32⟩
  | 23 => ⟨S64x256, .f32⟩
  | 24 => ⟨S1x256, .f32⟩
  | 25 => ⟨S64x256, .f32⟩
  | 26 => ⟨S64x256, .f32⟩
  | 27 => ⟨S_, .f32⟩
  | 28 => ⟨S64x256, .f32⟩
  | 29 => ⟨S64x256, .f32⟩
  | 30 => ⟨S64x8, .f32⟩
  | 31 => ⟨S1x8, .f32⟩
  | 32 => ⟨S64x8, .f32⟩
  | 33 => ⟨S64x8, .f32⟩
  | 34 => ⟨S64x8, .f32⟩
  | 35 => ⟨S_, .f32⟩
  | 36 => ⟨S64x8, .f32⟩
  | 37 => ⟨S64x8, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v15 : Ref sig .tc := ⟨.hbm, 33, rfl⟩
abbrev main_c : Ref sig .tc := ⟨.hbm, 34, rfl⟩
abbrev main_v16 : Ref sig .tc := ⟨.hbm, 35, rfl⟩
abbrev main_v17 : Ref sig .tc := ⟨.hbm, 36, rfl⟩
abbrev main_c_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_9 : Ref sig .tc := ⟨.hbm, 79, rfl⟩
abbrev main_v52 : Ref sig .tc := ⟨.hbm, 80, rfl⟩
abbrev main_cst_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_c_15 : Ref sig .tc := ⟨.hbm, 102, rfl⟩
abbrev main_v67 : Ref sig .tc := ⟨.hbm, 103, rfl⟩
abbrev main_v68 : Ref sig .tc := ⟨.hbm, 104, rfl⟩
abbrev main_c_16 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_c_18 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_call3_cst : Ref sig .tc := ⟨.hbm, 131, rfl⟩
abbrev main_call3_v0 : Ref sig .tc := ⟨.hbm, 132, rfl⟩
abbrev main_v91 : Ref sig .tc := ⟨.hbm, 133, rfl⟩
abbrev main_cst_20 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_21 : Ref sig .tc := ⟨.hbm, 138, rfl⟩
abbrev main_v95 : Ref sig .tc := ⟨.hbm, 139, rfl⟩
abbrev main_cst_22 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_cst_23 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_call4_cst : Ref sig .tc := ⟨.hbm, 155, rfl⟩
abbrev main_call4_v0 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_cst_24 : Ref sig .tc := ⟨.hbm, 163, rfl⟩
abbrev main_v115 : Ref sig .tc := ⟨.hbm, 164, rfl⟩
abbrev main_v116 : Ref sig .tc := ⟨.hbm, 165, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  concatenates_S500000_S50000_S550000_d0 : Shape.Concatenates [S500000, S50000] S550000 0
  bcast_S_S550000 : S_.BroadcastsInDim S550000 (![] : Fin 0 → Fin S550000.rank)
  bcast_S_S50000 : S_.BroadcastsInDim S50000 (![] : Fin 0 → Fin S50000.rank)
  bcast_S550000_S550000x1_0 : S550000.BroadcastsInDim S550000x1 (![0] : Fin 1 → Fin S550000x1.rank)
  bcast_S550000x1_S550000x128_0_1 : S550000x1.BroadcastsInDim S550000x128 (![0, 1] : Fin 2 → Fin S550000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  concatenates_S64x128_S64x64_S64x192_d1 : Shape.Concatenates [S64x128, S64x64] S64x192 1
  bcast_S256_S1x256_1 : S256.BroadcastsInDim S1x256 (![1] : Fin 1 → Fin S1x256.rank)
  bcast_S1x256_S64x256_0_1 : S1x256.BroadcastsInDim S64x256 (![0, 1] : Fin 2 → Fin S64x256.rank)
  bcast_S_S64x256 : S_.BroadcastsInDim S64x256 (![] : Fin 0 → Fin S64x256.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  bcast_S_S64x8 : S_.BroadcastsInDim S64x8 (![] : Fin 0 → Fin S64x8.rank)
  dot_S50000x128_S128x128_S50000x128_1_0_0_1_n_n_wf : DotDims.WF S50000x128 S128x128 S50000x128 [1] [0] [0] [1] [] []
  scatter_S50000_S550000x1_S550000_n_0_0_1_wf : ScatterDims.WF S50000 S550000x1 S550000 [] [0] [0] 1
  gather_S50000_S550000x1_S550000_n_0_n_n_0_1_1_wf : GatherDims.WF S50000 S550000x1 S550000 [] [0] [] [0] [] 1 ![1]
  gather_S50000x128_S550000x1_S550000x128_1_0_n_n_0_1_1128_wf : GatherDims.WF S50000x128 S550000x1 S550000x128 [1] [0] [] [0] [] 1 ![1, 128]
  scatter_S50000x128_S550000x1_S550000x128_1_0_0_1_wf : ScatterDims.WF S50000x128 S550000x1 S550000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x192_S192x256_S64x256_1_0_0_1_n_n_wf : DotDims.WF S64x192 S192x256 S64x256 [1] [0] [0] [1] [] []
  dot_S64x256_S256x8_S64x8_1_0_0_1_n_n_wf : DotDims.WF S64x256 S256x8 S64x8 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S550000x1_S550000_n_0_0_1 : ScatterDims S50000 S550000x1 S550000 where
  updateWindowDims := []
  insertedWindowDims := [0]
  scatterDimsToOperandDims := [0]
  indexVectorDim := 1
  wf := scatter_S50000_S550000x1_S550000_n_0_0_1_wf
def gather_S50000_S550000x1_S550000_n_0_n_n_0_1_1 : GatherDims S50000 S550000x1 S550000 where
  offsetDims := []
  collapsedSliceDims := [0]
  operandBatchingDims := []
  startIndicesBatchingDims := []
  startIndexMap := [0]
  indexVectorDim := 1
  sliceSizes := ![1]
  wf := gather_S50000_S550000x1_S550000_n_0_n_n_0_1_1_wf
def gather_S50000x128_S550000x1_S550000x128_1_0_n_n_0_1_1128 : GatherDims S50000x128 S550000x1 S550000x128 where
  offsetDims := [1]
  collapsedSliceDims := [0]
  operandBatchingDims := []
  startIndicesBatchingDims := []
  startIndexMap := [0]
  indexVectorDim := 1
  sliceSizes := ![1, 128]
  wf := gather_S50000x128_S550000x1_S550000x128_1_0_n_n_0_1_1128_wf
def scatter_S50000x128_S550000x1_S550000x128_1_0_0_1 : ScatterDims S50000x128 S550000x1 S550000x128 where
  updateWindowDims := [1]
  insertedWindowDims := [0]
  scatterDimsToOperandDims := [0]
  indexVectorDim := 1
  wf := scatter_S50000x128_S550000x1_S550000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x192_S192x256_S64x256_1_0_0_1_n_n : DotDims S64x192 S192x256 S64x256 where
  lhsContracting := [1]
  rhsContracting := [0]
  lhsNonContracting := [0]
  rhsNonContracting := [1]
  lhsBatch := []
  rhsBatch := []
  wf := dot_S64x192_S192x256_S64x256_1_0_0_1_n_n_wf
def dot_S64x256_S256x8_S64x8_1_0_0_1_n_n : DotDims S64x256 S256x8 S64x8 where
  lhsContracting := [1]
  rhsContracting := [0]
  lhsNonContracting := [0]
  rhsNonContracting := [1]
  lhsBatch := []
  rhsBatch := []
  wf := dot_S64x256_S256x8_S64x8_1_0_0_1_n_n_wf

class Facts : Prop extends Facts₀ where

variable [Facts]
-- ==== Proof.KI.R0.lean ====
import proofs.«407291_j19164144075375_2_alg».proof.Proof.Gen.KernelIdeal.Launch
import proofs.«407291_j19164144075375_2_alg».proof.Proof.Gen.KernelIdeal.Skeleton
import proofs.«407291_j19164144075375_2_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S5000x1 := Rect.unit (s := S5000x1) ![0, 0] S5000x1.size inb_S5000x1_S5000x1_0_0

def out0_3 (x0 : Vec F S5000x128 .f32) (x1 : Vec F S128x128 .f32) (x2 : Vec F S5000x1 .f32) : Vec F S5000x128 .f32 :=
  View.canon [⟨r0_0, k0_pay1 (View.ld x0 r0_0) (View.ld x1 r0_1) (View.ld x2 r0_2)⟩]

theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

theorem out0_3_eq (x0 : Vec F S5000x128 .f32) (x1 : Vec F S128x128 .f32) (x2 : Vec F S5000x1 .f32) :
    out0_3 x0 x1 x2 = k0_pay1 x0 x1 x2 := by
  have hz : (![0, 0] : Fin 2 → Nat) = fun _ => 0 := funext fun a => by fin_cases a <;> rfl
  unfold out0_3
  rw [View.canon_unit_zero (S := S5000x128) hz, View.ld_unit_zero (S := S5000x128) hz, View.ld_unit_zero (S := S128x128) hz,
    View.ld_unit_zero (S := S5000x1) hz]

set_option maxHeartbeats 1000000 in
theorem sound_kernel0 (c : Dev nD) (E : Set ℕ) (i : grid0.Coords)
    (arg1 : Memref sig .tc .vmem S5000x128 .f32) (harg1 : arg1.IsWhole) (arg2 : Memref sig .tc .vmem S128x128 .f32) (harg2 : arg2.IsWhole)
    (arg3 : Memref sig .tc .vmem S5000x1 .f32) (harg3 : arg3.IsWhole) (arg4 : Memref sig .tc .vmem S5000x128 .f32) (harg4 : arg4.IsWhole)
    (x0 : Vec F S5000x128 .f32) (x1 : Vec F S128x128 .f32) (x2 : Vec F S5000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_scale_kernel i arg1 harg1 arg2 harg2 arg3 harg3 arg4 harg4) K := by
  simp only [cc0__linear_scale_kernel_eq_skeleton]; unfold cc0__linear_scale_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

example (c : Dev nD) := (dat0 V c).share_full fun _ => rfl
example (c : Dev nD) (t) : (dat0 V c).owed t = 0 := rfl
example (c : Dev nD) (t) : (dat0 V c).Φ t = Pipeline.ΦA spec0 c := rfl

end Cert.KernelIdeal.Hand

end
-- ==== Proof.KI.R1.lean ====
import proofs.«407291_j19164144075375_2_alg».proof.Proof.Gen.KernelIdeal.Launch
import proofs.«407291_j19164144075375_2_alg».proof.Proof.Gen.KernelIdeal.Skeleton
import proofs.«407291_j19164144075375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rA : Rect S5000x128 := Rect.unit (s := S5000x128) ![0, 0] S5000x128.size inb_S5000x128_S5000x128_0_0
abbrev rB : Rect S5000x1 := Rect.unit (s := S5000x1) ![0, 0] S5000x1.size inb_S5000x1_S5000x1_0_0
abbrev rC : Rect S1x128 := Rect.unit (s := S1x128) ![0, 0] S1x128.size inb_S1x128_S1x128_0_0
abbrev rD : Rect S128x128 := Rect.unit (s := S128x128) ![0, 0] S128x128.size inb_S128x128_S128x128_0_0

def out1_4 (x0 : Vec F S5000x128 .f32) (x1 : Vec F S5000x1 .f32) (x2 : Vec F S1x128 .f32) (x3 : Vec F S128x128 .f32) : Vec F S5000x128 .f32 :=
  View.canon [⟨rA, k1_pay1 (View.ld x1 rB) (View.ld x0 rA) (View.ld x2 rC) (View.ld x3 rD) (View.ld x1 rB)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)

theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

theorem before1_3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

theorem cover1_4 (p0 : Vec F S5000x128 .f32) (y : S5000x128.Idx) :
    ∃ pc ∈ ([⟨rA, p0⟩] : List (View.Piece (Elt F) S5000x128 .f32)), y ∈ pc.1.set :=
  View.cover_of_tiled [⟨rA, p0⟩] S5000x128.size (by rfl) y

set_option maxHeartbeats 1000000 in
theorem sound_kernel1 (c : Dev nD) (E : Set ℕ) (i : grid1.Coords)
    (arg1 : Memref sig .tc .vmem S5000x128 .f32) (harg1 : arg1.IsWhole)
    (arg2 : Memref sig .tc .vmem S5000x1 .f32) (harg2 : arg2.IsWhole)
    (arg3 : Memref sig .tc .vmem S1x128 .f32) (harg3 : arg3.IsWhole)
    (arg4 : Memref sig .tc .vmem S128x128 .f32) (harg4 : arg4.IsWhole)
    (arg5 : Memref sig .tc .vmem S5000x128 .f32) (harg5 : arg5.IsWhole)
    (x0 : Vec F S5000x128 .f32) (x1 : Vec F S5000x1 .f32) (x2 : Vec F S1x128 .f32) (x3 : Vec F S128x128 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out1_4 x0 x1 x2 x3)) -∗ K ⟨⟩))
      ⊢ wp frame (wpE (defs₀ (F := F)) Variants.none c none) E
          (cc1__relu_linear_scale_kernel i arg1 harg1 arg2 harg2 arg3 harg3 arg4 harg4 arg5 harg5) K := by
  simp only [cc1__relu_linear_scale_kernel_eq_skeleton]; unfold cc1__relu_linear_scale_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

theorem hz : (![0, 0] : Fin 2 → Nat) = fun _ => 0 := funext fun a => by fin_cases a <;> rfl

theorem out1_4_eq (x0 : Vec F S5000x128 .f32) (x1 : Vec F S5000x1 .f32) (x2 : Vec F S1x128 .f32) (x3 : Vec F S128x128 .f32) :
    out1_4 x0 x1 x2 x3 = k1_pay1 x1 x0 x2 x3 x1 := by
  unfold out1_4
  rw [View.canon_unit_zero hz]
  rw [View.ld_unit_zero (S := S5000x128) hz, View.ld_unit_zero (S := S5000x1) hz, View.ld_unit_zero (S := S1x128) hz,
    View.ld_unit_zero (S := S128x128) hz]

end Cert.KernelIdeal.Hand

end
-- ==== Proof.KI.R2Runs.lean ====
import proofs.«407291_j19164144075375_2_alg».proof.Proof.Gen.KernelIdeal.Launch
import proofs.«407291_j19164144075375_2_alg».proof.Proof.Gen.KernelIdeal.Skeleton
import proofs.«407291_j19164144075375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

end Region2

abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)

abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem idleAt2_5 : ∀ t : Fin cfg2.N, ¬cond2_1 (grid2.coords t) → cfg2.idle 5 (grid2.coords t) = true := by decide +kernel
theorem noFlush2_5 : ∀ t : Fin cfg2.N, ¬cond2_1 (grid2.coords t) → (cfg2.win 5).flush t = false := by decide +kernel
theorem liveAt2_4 : ∀ t : Fin cfg2.N, cond2_1 (grid2.coords t) → cfg2.idle 4 (grid2.coords t) = false := by decide +kernel
theorem liveAt2_5 : ∀ t : Fin cfg2.N, cond2_1 (grid2.coords t) → cfg2.idle 5 (grid2.coords t) = false := by decide +kernel

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S5000x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S64x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev scM2_0 : Memref sig .tc .vmem S64x128 .f32 := Memref.whole cc2_scratch0
abbrev scM2_1 : Memref sig .tc .vmem S1x64 .f32 := Memref.whole cc2_scratch1
abbrev VS2_0 : View sig .tc .vmem S64x128 .f32 := scM2_0.view
abbrev VS2_1 : View sig .tc .vmem S1x64 .f32 := scM2_1.view
abbrev VO2_4 : View sig .tc .vmem S64x128 .f32 := (Memref.whole cc2_stg4_0 : Memref sig .tc .vmem S64x128 .f32).view
abbrev VO2_5 : View sig .tc .vmem S1x64 .f32 := (Memref.whole cc2_stg5_0 : Memref sig .tc .vmem S1x64 .f32).view

theorem scratch_mem2 : ([cc2_scratch0, cc2_scratch1] : List (Ref sig .tc)).Forall
    fun b => b.isScoped = true ∧ ∀ (w : Fin 6) (s : Fin (spec2 w).nbuf), ((spec2 w).stage s).view.ref ≠ b := by decide

abbrev restBut2 (c : Dev nD) : sProp 𝕄 :=
  Pipeline.scopedRestBut (Ix := Unit) (Name := ℕ) (U := UR sig nD τ) (Lvl := ℕ) (Val := Elt F) spec2 c [cc2_scratch0, cc2_scratch1]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d)) ∗ restBut2 c) ∗ (∃ r, prngReg c r)) := by
  unfold Pipeline.ΦA
  rw [Pipeline.scopedRest_split_of_list spec2 c [cc2_scratch0, cc2_scratch1] scratch_mem2 (by decide)]
  simp only [scM2_0, scM2_1, owns_whole, bigSepL_cons_cons, bigSepL_singleton]; try rfl

section
variable (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)

set_option maxHeartbeats 1000000 in
noncomputable def kernelRun2_A
    (hc0 : cond2_0 i) (hc1 : ¬cond2_1 i) (x0 : Vec F S5000x128 .f32) (x1 : Vec F S5000x1 .f32) (x2 : Vec F S1x128 .f32) (x3 : Vec F S5000x1 .i32) :
    Σ' (LS0 : List (View.Piece (Elt F) S64x128 .f32)), { LS1 : List (View.Piece (Elt F) S1x64 .f32) //
      ∀ (xi4 : Vec F S64x128 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__relu_pool_kernel i arg1 harg1 arg2 harg2 arg3 harg3 arg4 harg4 arg5 harg5 arg6 harg6 arg7 harg7 arg8 harg8) K } := by
  refine ⟨?_, ?_, fun xi4 xi5 E K => ?run⟩
  case run =>
    simp only [cc2__relu_pool_kernel_eq_skeleton]; unfold cc2__relu_pool_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
noncomputable def kernelRun2_B
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) :
    Σ' (LS0 : List (View.Piece (Elt F) S64x128 .f32)), { LS1 : List (View.Piece (Elt F) S1x64 .f32) //
      ∀ (xi4 : Vec F S64x128 .f32) (xi5 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__relu_pool_kernel i arg1 harg1 arg2 harg2 arg3 harg3 arg4 harg4 arg5 harg5 arg6 harg6 arg7 harg7 arg8 harg8) K } := by
  refine ⟨?_, ?_, fun xi4 xi5 E K => ?run⟩
  case run =>
    simp only [cc2__relu_pool_kernel_eq_skeleton]; unfold cc2__relu_pool_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]; · iexists _; iexact HS0
    iexists _; iexact HS1

set_option maxHeartbeats 1000000 in
noncomputable def kernelRun2_C
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) :
    Σ' (L4 : List (View.Piece (Elt F) S64x128 .f32)) (L5 : List (View.Piece (Elt F) S1x64 .f32)) (LS0 : List (View.Piece (Elt F) S64x128 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc2__relu_pool_kernel i arg1 harg1 arg2 harg2 arg3 harg3 arg4 harg4 arg5 harg5 arg6 harg6 arg7 harg7 arg8 harg8) K } := by
  refine ⟨?_, ?_, ?_, ?_, fun E K => ?run⟩
  case run =>
    simp only [cc2__relu_pool_kernel_eq_skeleton]; unfold cc2__relu_pool_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]; · iexists _; iexact HS0
    iexists _; iexact HS1

end

end Cert.KernelIdeal.Hand

end
-- ==== Proof.KI.R2.lean ====
import proofs.«407291_j19164144075375_2_alg».proof.Proof.KI.R2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (c : Dev nD) (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole)

theorem scover2_A_0
    (hc0 : cond2_0 i) (hc1 : ¬cond2_1 i) (x0 : Vec F S5000x128 .f32) (x1 : Vec F S5000x1 .f32) (x2 : Vec F S1x128 .f32) (x3 : Vec F S5000x1 .i32) (y : S64x128.Idx) :
    ∃ pc ∈ (kernelRun2_A c i arg1 harg1 arg2 harg2 arg3 harg3 arg4 harg4 arg5 harg5 arg6 harg6 arg7 harg7 arg8 harg8 hc0 hc1 x0 x1 x2 x3).1, y ∈ pc.1.set :=
  View.cover_of_tiledL (kernelRun2_A c i arg1 harg1 arg2 harg2 arg3 harg3 arg4 harg4 arg5 harg5 arg6 harg6 arg7 harg7 arg8 harg8 hc0 hc1 x0 x1 x2 x3).1 S64x128.size (by sl_kernel_rfl) y
def sout2_A_0
    (hc0 : cond2_0 i) (hc1 : ¬cond2_1 i) (x0 : Vec F S5000x128 .f32) (x1 : Vec F S5000x1 .f32) (x2 : Vec F S1x128 .f32) (x3 : Vec F S5000x1 .i32) : Vec F S64x128 .f32 :=
  VS2_0.read (Elt F) (VS2_0.writes (Elt F) VS2_0.junk (kernelRun2_A c i arg1 harg1 arg2 harg2 arg3 harg3 arg4 harg4 arg5 harg5 arg6 harg6 arg7 harg7 arg8 harg8 hc0 hc1 x0 x1 x2 x3).1)
theorem scover2_A_1
    (hc0 : cond2_0 i) (hc1 : ¬cond2_1 i) (x0 : Vec F S5000x128 .f32) (x1 : Vec F S5000x1 .f32) (x2 : Vec F S1x128 .f32) (x3 : Vec F S5000x1 .i32) (y : S1x64.Idx) :
    ∃ pc ∈ (kernelRun2_A c i arg1 harg1 arg2 harg2 arg3 harg3 arg4 harg4 arg5 harg5 arg6 harg6 arg7 harg7 arg8 harg8 hc0 hc1 x0 x1 x2 x3).2.1, y ∈ pc.1.set :=
  View.cover_of_tiledL (kernelRun2_A c i arg1 harg1 arg2 harg2 arg3 harg3 arg4 harg4 arg5 harg5 arg6 harg6 arg7 harg7 arg8 harg8 hc0 hc1 x0 x1 x2 x3).2.1 S1x64.size (by sl_kernel_rfl) y
def sout2_A_1
    (hc0 : cond2_0 i) (hc1 : ¬cond2_1 i) (x0 : Vec F S5000x128 .f32) (x1 : Vec F S5000x1 .f32) (x2 : Vec F S1x128 .f32) (x3 : Vec F S5000x1 .i32) : Vec F S1x64 .f32 :=
  VS2_1.read (Elt F) (VS2_1.writes (Elt F) VS2_1.junk (kernelRun2_A c i arg1 harg1 arg2 harg2 arg3 harg3 arg4 harg4 arg5 harg5 arg6 harg6 arg7 harg7 arg8 harg8 hc0 hc1 x0 x1 x2 x3).2.1)

theorem scover2_B_0
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) (y : S64x128.Idx) :
    ∃ pc ∈ (kernelRun2_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).1 S64x128.size (by sl_kernel_rfl) y
def sout2_B_0
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) : Vec F S64x128 .f32 :=
  VS2_0.read (Elt F) (VS2_0.writes (Elt F) VS2_0.junk (kernelRun2_B c i arg1 harg1 arg2 harg2 arg3 harg3 arg4 harg4 arg5 harg5 arg6 harg6 arg7 harg7 arg8 harg8 hc0 hc1 x0 x1 x2 x3 xs0 xs1).1)
theorem scover2_B_1
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) (y : S1x64.Idx) :
    ∃ pc ∈ (kernelRun2_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun2_B c i arg1 harg1 arg2 harg2 arg3 harg3 arg4 harg4 arg5 harg5 arg6 harg6 arg7 harg7 arg8 harg8 hc0 hc1 x0 x1 x2 x3 xs0 xs1).2.1 S1x64.size (by sl_kernel_rfl) y
def sout2_B_1
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) : Vec F S1x64 .f32 :=
  VS2_1.read (Elt F) (VS2_1.writes (Elt F) VS2_1.junk (kernelRun2_B c i arg1 harg1 arg2 harg2 arg3 harg3 arg4 harg4 arg5 harg5 arg6 harg6 arg7 harg7 arg8 harg8 hc0 hc1 x0 x1 x2 x3 xs0 xs1).2.1)

theorem cover2_C_4
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) (y : S64x128.Idx) :
    ∃ pc ∈ (kernelRun2_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).1 S64x128.size (by sl_kernel_rfl) y
def out2_C_4
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) : Vec F S64x128 .f32 :=
  VO2_4.read (Elt F) (VO2_4.writes (Elt F) VO2_4.junk (kernelRun2_C c i arg1 harg1 arg2 harg2 arg3 harg3 arg4 harg4 arg5 harg5 arg6 harg6 arg7 harg7 arg8 harg8 hc0 hc1 x0 x1 x2 x3 xs0 xs1).1)
theorem cover2_C_5
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) (y : S1x64.Idx) :
    ∃ pc ∈ (kernelRun2_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.1 S1x64.size (by sl_kernel_rfl) y
def out2_C_5
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) : Vec F S1x64 .f32 :=
  VO2_5.read (Elt F) (VO2_5.writes (Elt F) VO2_5.junk (kernelRun2_C c i arg1 harg1 arg2 harg2 arg3 harg3 arg4 harg4 arg5 harg5 arg6 harg6 arg7 harg7 arg8 harg8 hc0 hc1 x0 x1 x2 x3 xs0 xs1).2.1)
theorem scover2_C_0
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) (y : S64x128.Idx) :
    ∃ pc ∈ (kernelRun2_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.2.1 S64x128.size (by sl_kernel_rfl) y
def sout2_C_0
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) : Vec F S64x128 .f32 :=
  VS2_0.read (Elt F) (VS2_0.writes (Elt F) VS2_0.junk (kernelRun2_C c i arg1 harg1 arg2 harg2 arg3 harg3 arg4 harg4 arg5 harg5 arg6 harg6 arg7 harg7 arg8 harg8 hc0 hc1 x0 x1 x2 x3 xs0 xs1).2.2.1)
theorem scover2_C_1
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) (y : S1x64.Idx) :
    ∃ pc ∈ (kernelRun2_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun2_C c i arg1 harg1 arg2 harg2 arg3 harg3 arg4 harg4 arg5 harg5 arg6 harg6 arg7 harg7 arg8 harg8 hc0 hc1 x0 x1 x2 x3 xs0 xs1).2.2.2.1 S1x64.size (by sl_kernel_rfl) y
def sout2_C_1
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) : Vec F S1x64 .f32 :=
  VS2_1.read (Elt F) (VS2_1.writes (Elt F) VS2_1.junk (kernelRun2_C c i arg1 harg1 arg2 harg2 arg3 harg3 arg4 harg4 arg5 harg5 arg6 harg6 arg7 harg7 arg8 harg8 hc0 hc1 x0 x1 x2 x3 xs0 xs1).2.2.2.1)

theorem hz2 : (![0, 0] : Fin 2 → ℕ) = fun _ => 0 := by
  funext a; match a with
  | ⟨0, _⟩ => rfl
  | ⟨1, _⟩ => rfl

theorem sout2_A_0_eq
    (hc0 : cond2_0 i) (hc1 : ¬cond2_1 i) (x0 : Vec F S5000x128 .f32) (x1 : Vec F S5000x1 .f32) (x2 : Vec F S1x128 .f32) (x3 : Vec F S5000x1 .i32) :
    sout2_A_0 c i arg1 harg1 arg2 harg2 arg3 harg3 arg4 harg4 arg5 harg5 arg6 harg6 arg7 harg7 arg8 harg8 hc0 hc1 x0 x1 x2 x3 = k2_pay5 x1 x0 x2 x3 (k2_pay2 (F := F)) := by
  unfold sout2_A_0
  rw [View.read_writes_eq_canon _ _ _ (scover2_A_0 c i arg1 harg1 arg2 harg2 arg3 harg3 arg4 harg4 arg5 harg5 arg6 harg6 arg7 harg7 arg8 harg8 hc0 hc1 x0 x1 x2 x3)]
  unfold kernelRun2_A
  dsimp only
  sl_unfold_words
  (try dsimp only)
  rw [View.canon_cons_unit_zero (S := S64x128) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem sout2_A_1_eq
    (hc0 : cond2_0 i) (hc1 : ¬cond2_1 i) (x0 : Vec F S5000x128 .f32) (x1 : Vec F S5000x1 .f32) (x2 : Vec F S1x128 .f32) (x3 : Vec F S5000x1 .i32) :
    sout2_A_1 c i arg1 harg1 arg2 harg2 arg3 harg3 arg4 harg4 arg5 harg5 arg6 harg6 arg7 harg7 arg8 harg8 hc0 hc1 x0 x1 x2 x3 = k2_pay1 (k2_pay6 x3 (k2_pay3 (F := F))) := by
  unfold sout2_A_1
  rw [View.read_writes_eq_canon _ _ _ (scover2_A_1 c i arg1 harg1 arg2 harg2 arg3 harg3 arg4 harg4 arg5 harg5 arg6 harg6 arg7 harg7 arg8 harg8 hc0 hc1 x0 x1 x2 x3)]
  unfold kernelRun2_A
  dsimp only
  sl_unfold_words
  (try dsimp only)
  rw [View.canon_cons_unit_zero (S := S1x64) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem sout2_B_0_eq
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) :
    sout2_B_0 c i arg1 harg1 arg2 harg2 arg3 harg3 arg4 harg4 arg5 harg5 arg6 harg6 arg7 harg7 arg8 harg8 hc0 hc1 x0 x1 x2 x3 xs0 xs1 = k2_pay5 x1 x0 x2 x3 xs0 := by
  unfold sout2_B_0
  rw [View.read_writes_eq_canon _ _ _ (scover2_B_0 c i arg1 harg1 arg2 harg2 arg3 harg3 arg4 harg4 arg5 harg5 arg6 harg6 arg7 harg7 arg8 harg8 hc0 hc1 x0 x1 x2 x3 xs0 xs1)]
  unfold kernelRun2_B
  dsimp only
  sl_unfold_words
  (try dsimp only)
  rw [View.canon_unit_zero (S := S64x128) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem sout2_B_1_eq
    (hc0 : ¬cond2_0 i) (hc1 : ¬cond2_1 i) (x0 : Vec F S5000x128 .f32) (x1 : Vec F S5000x1 .f32) (x2 : Vec F S1x128 .f32) (x3 : Vec F S5000x1 .i32) (xs0 : Vec F S64x128 .f32) (xs1 : Vec F S1x64 .f32) :
    sout2_B_1 c i arg1 harg1 arg2 harg2 arg3 harg3 arg4 harg4 arg5 harg5 arg6 harg6 arg7 harg7 arg8 harg8 hc0 hc1 x0 x1 x2 x3 xs0 xs1 = k2_pay1 (k2_pay6 x3 xs1) := by
  unfold sout2_B_1
  rw [View.read_writes_eq_canon _ _ _ (scover2_B_1 c i arg1 harg1 arg2 harg2 arg3 harg3 arg4 harg4 arg5 harg5 arg6 harg6 arg7 harg7 arg8 harg8 hc0 hc1 x0 x1 x2 x3 xs0 xs1)]
  unfold kernelRun2_B
  dsimp only
  sl_unfold_words
  (try dsimp only)
  rw [View.canon_unit_zero (S := S1x64) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem sout2_C_0_eq
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) :
    sout2_C_0 c i arg1 harg1 arg2 harg2 arg3 harg3 arg4 harg4 arg5 harg5 arg6 harg6 arg7 harg7 arg8 harg8 hc0 hc1 x0 x1 x2 x3 xs0 xs1 = k2_pay5 x1 x0 x2 x3 xs0 := by
  unfold sout2_C_0
  rw [View.read_writes_eq_canon _ _ _ (scover2_C_0 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  (try dsimp only)
  rw [View.canon_unit_zero (S := S64x128) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem sout2_C_1_eq
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) :
    sout2_C_1 c i arg1 harg1 arg2 harg2 arg3 harg3 arg4 harg4 arg5 harg5 arg6 harg6 arg7 harg7 arg8 harg8 hc0 hc1 x0 x1 x2 x3 xs0 xs1 = k2_pay1 (k2_pay6 x3 xs1) := by
  unfold sout2_C_1
  rw [View.read_writes_eq_canon _ _ _ (scover2_C_1 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  (try dsimp only)
  rw [View.canon_unit_zero (S := S1x64) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem out2_C_4_eq
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) :
    out2_C_4 c i arg1 harg1 arg2 harg2 arg3 harg3 arg4 harg4 arg5 harg5 arg6 harg6 arg7 harg7 arg8 harg8 hc0 hc1 x0 x1 x2 x3 xs0 xs1 = k2_pay5 x1 x0 x2 x3 xs0 := by
  unfold out2_C_4
  rw [View.read_writes_eq_canon _ _ _ (cover2_C_4 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  (try dsimp only)
  rw [View.canon_unit_zero (S := S64x128) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

theorem out2_C_5_eq
    (hc0 : ¬cond2_0 i) (hc1 : cond2_1 i) (x0 : Vec F S5000x128 .f32) (x1 : Vec F S5000x1 .f32) (x2 : Vec F S1x128 .f32) (x3 : Vec F S5000x1 .i32) (xs0 : Vec F S64x128 .f32) (xs1 : Vec F S1x64 .f32) :
    out2_C_5 c i arg1 harg1 arg2 harg2 arg3 harg3 arg4 harg4 arg5 harg5 arg6 harg6 arg7 harg7 arg8 harg8 hc0 hc1 x0 x1 x2 x3 xs0 xs1 = k2_pay1 (k2_pay6 x3 xs1) := by
  unfold out2_C_5
  rw [View.read_writes_eq_canon _ _ _ (cover2_C_5 c i arg1 harg1 arg2 harg2 arg3 harg3 arg4 harg4 arg5 harg5 arg6 harg6 arg7 harg7 arg8 harg8 hc0 hc1 x0 x1 x2 x3 xs0 xs1)]
  unfold kernelRun2_C
  dsimp only
  sl_unfold_words
  (try dsimp only)
  rw [View.canon_unit_zero (S := S1x64) hz2]
  simp only [View.readAt_eq_ld, harg1.read_unread, harg2.read_unread, harg3.read_unread, harg4.read_unread, harg7.read_unread, harg8.read_unread,
    View.ld_unit_zero (S := S5000x128) hz2, View.ld_unit_zero (S := S5000x1) hz2, View.ld_unit_zero (S := S1x128) hz2,
    View.ld_unit_zero (S := S64x128) hz2, View.ld_unit_zero (S := S1x64) hz2,
    View.readCov_unit_zero (S := S64x128) _ hz2, View.readCov_unit_zero (S := S1x64) _ hz2]

end

section Region2
variable (V : (c : Dev nD) → (b : Ref sig .tc) → Buf (Elt F) ((c : Thread nD τ).loc b))

universe u

abbrev at2 {β : grid2.Coords → Sort u} (f : ∀ (i : grid2.Coords) (arg1 : Memref sig .tc .vmem S5000x128 .f32) (harg1 : arg1.IsWhole) (arg2 : Memref sig .tc .vmem S5000x1 .f32) (harg2 : arg2.IsWhole) (arg3 : Memref sig .tc .vmem S1x128 .f32) (harg3 : arg3.IsWhole) (arg4 : Memref sig .tc .vmem S5000x1 .i32) (harg4 : arg4.IsWhole) (arg5 : Memref sig .tc .vmem S64x128 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x64 .f32) (harg8 : arg8.IsWhole), β i) (t : Fin cfg2.N) : β (grid2.coords t) :=
  f (grid2.coords t) (ms2_0 t) (hs2_0 t) (ms2_1 t) (hs2_1 t) (ms2_2 t) (hs2_2 t) (ms2_3 t) (hs2_3 t) (ms2_4 t) (hs2_4 t) (ms2_5 t) (hs2_5 t) scM2_0 (Memref.isWhole_whole _) scM2_1 (Memref.isWhole_whole _)

def outsAt2 (c : Dev nD) : (n : ℕ) → n < cfg2.N → Vec F S64x128 .f32 × Vec F S1x64 .f32 × Vec F S64x128 .f32 × Vec F S1x64 .f32
  | 0, hn => (at2 (sout2_A_0 c) ⟨0, hn⟩ ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), at2 (sout2_A_1 c) ⟨0, hn⟩ ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), at2 (sout2_A_0 c) ⟨0, hn⟩ ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩), at2 (sout2_A_1 c) ⟨0, hn⟩ ((hcond2_0 ⟨0, hn⟩).mpr rfl) (fun h => (fun h => by (try dsimp only at h); omega) ((hcond2_1 ⟨0, hn⟩).mp h)) (iblk2 V c 0 ⟨0, hn⟩) (iblk2 V c 1 ⟨0, hn⟩) (iblk2 V c 2 ⟨0, hn⟩) (iblk2 V c 3 ⟨0, hn⟩))
  | n + 1, hn =>
    if h1 : n + 1 = 9 then
      (at2 (out2_C_4 c) ⟨n + 1, hn⟩ (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, at2 (out2_C_5 c) ⟨n + 1, hn⟩ (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, at2 (sout2_C_0 c) ⟨n + 1, hn⟩ (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, at2 (sout2_C_1 c) ⟨n + 1, hn⟩ (fun h => (fun h => by (try dsimp only at h); omega) ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)
    else
      (at2 (sout2_B_0 c) ⟨n + 1, hn⟩ (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, at2 (sout2_B_1 c) ⟨n + 1, hn⟩ (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, at2 (sout2_B_0 c) ⟨n + 1, hn⟩ (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2, at2 (sout2_B_1 c) ⟨n + 1, hn⟩ (fun h => (fun h => by (try dsimp only at h); omega) ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (outsAt2 c n (Nat.lt_of_succ_lt hn)).2.2.1 (outsAt2 c n (Nat.lt_of_succ_lt hn)).2.2.2)

abbrev prev2 (c : Dev nD) (t : Fin cfg2.N) := outsAt2 V c (t.val - 1) (Nat.lt_of_le_of_lt (Nat.sub_le _ _) t.isLt)

theorem outsAt2_A (c : Dev nD) (t : Fin cfg2.N) (h0 : t.val = 0) (h1 : ¬t.val = 9) :
    outsAt2 V c t.val t.isLt = (at2 (sout2_A_0 c) t ((hcond2_0 t).mpr h0) (fun h => h1 ((hcond2_1 t).mp h)) (iblk2 V c 0 t) (iblk2 V c 1 t) (iblk2 V c 2 t) (iblk2 V c 3 t), at2 (sout2_A_1 c) t ((hcond2_0 t).mpr h0) (fun h => h1 ((hcond2_1 t).mp h)) (iblk2 V c 0 t) (iblk2 V c 1 t) (iblk2 V c 2 t) (iblk2 V c 3 t), at2 (sout2_A_0 c) t ((hcond2_0 t).mpr h0) (fun h => h1 ((hcond2_1 t).mp h)) (iblk2 V c 0 t) (iblk2 V c 1 t) (iblk2 V c 2 t) (iblk2 V c 3 t), at2 (sout2_A_1 c) t ((hcond2_0 t).mpr h0) (fun h => h1 ((hcond2_1 t).mp h)) (iblk2 V c 0 t) (iblk2 V c 1 t) (iblk2 V c 2 t) (iblk2 V c 3 t)) := by
  obtain ⟨n, hn⟩ := t
  cases n with
  | zero => exact rfl
  | succ n => exact absurd h0 (Nat.succ_ne_zero n)

theorem outsAt2_B (c : Dev nD) (t : Fin cfg2.N) (h0 : ¬t.val = 0) (h1 : ¬t.val = 9) :
    outsAt2 V c t.val t.isLt = (at2 (sout2_B_0 c) t (fun h => h0 ((hcond2_0 t).mp h)) (fun h => h1 ((hcond2_1 t).mp h)) (iblk2 V c 0 t) (iblk2 V c 1 t) (iblk2 V c 2 t) (iblk2 V c 3 t) (prev2 V c t).2.2.1 (prev2 V c t).2.2.2, at2 (sout2_B_1 c) t (fun h => h0 ((hcond2_0 t).mp h)) (fun h => h1 ((hcond2_1 t).mp h)) (iblk2 V c 0 t) (iblk2 V c 1 t) (iblk2 V c 2 t) (iblk2 V c 3 t) (prev2 V c t).2.2.1 (prev2 V c t).2.2.2, at2 (sout2_B_0 c) t (fun h => h0 ((hcond2_0 t).mp h)) (fun h => h1 ((hcond2_1 t).mp h)) (iblk2 V c 0 t) (iblk2 V c 1 t) (iblk2 V c 2 t) (iblk2 V c 3 t) (prev2 V c t).2.2.1 (prev2 V c t).2.2.2, at2 (sout2_B_1 c) t (fun h => h0 ((hcond2_0 t).mp h)) (fun h => h1 ((hcond2_1 t).mp h)) (iblk2 V c 0 t) (iblk2 V c 1 t) (iblk2 V c 2 t) (iblk2 V c 3 t) (prev2 V c t).2.2.1 (prev2 V c t).2.2.2) := by
  obtain ⟨n, hn⟩ := t
  cases n with
  | zero => exact absurd rfl h0
  | succ n => exact (dif_neg h1).trans rfl

theorem outsAt2_C (c : Dev nD) (t : Fin cfg2.N) (h0 : ¬t.val = 0) (h1 : t.val = 9) :
    outsAt2 V c t.val t.isLt = (at2 (out2_C_4 c) t (fun h => h0 ((hcond2_0 t).mp h)) ((hcond2_1 t).mpr h1) (iblk2 V c 0 t) (iblk2 V c 1 t) (iblk2 V c 2 t) (iblk2 V c 3 t) (prev2 V c t).2.2.1 (prev2 V c t).2.2.2, at2 (out2_C_5 c) t (fun h => h0 ((hcond2_0 t).mp h)) ((hcond2_1 t).mpr h1) (iblk2 V c 0 t) (iblk2 V c 1 t) (iblk2 V c 2 t) (iblk2 V c 3 t) (prev2 V c t).2.2.1 (prev2 V c t).2.2.2, at2 (sout2_C_0 c) t (fun h => h0 ((hcond2_0 t).mp h)) ((hcond2_1 t).mpr h1) (iblk2 V c 0 t) (iblk2 V c 1 t) (iblk2 V c 2 t) (iblk2 V c 3 t) (prev2 V c t).2.2.1 (prev2 V c t).2.2.2, at2 (sout2_C_1 c) t (fun h => h0 ((hcond2_0 t).mp h)) ((hcond2_1 t).mpr h1) (iblk2 V c 0 t) (iblk2 V c 1 t) (iblk2 V c 2 t) (iblk2 V c 3 t) (prev2 V c t).2.2.1 (prev2 V c t).2.2.2) := by
  obtain ⟨n, hn⟩ := t
  cases n with
  | zero => exact absurd rfl h0
  | succ n => exact (dif_pos h1).trans rfl

def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.1 ∗ owns (c : Thread nD τ) scM2_1 fullShare (outsAt2 V c n hn).2.2.2) ∗ restBut2 c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(iprop(owns (c : Thread nD τ) scM2_0 fullShare (outsAt2 V c n hn).2.2.1 ∗ owns (c : Thread nD τ) scM2_1 fullShare (outsAt2 V c n hn).2.2.2) ∗ restBut2 c) ∗ (∃ r, prngReg c r)) := rfl

theorem PhiS2_pos (c : Dev nD) (n : ℕ) (h : n ≤ cfg2.N) (hz : n ≠ 0) :
    PhiS2 V c n h = iprop(iprop(iprop(owns (c : Thread nD τ) scM2_0 fullShare (outsAt2 V c (n - 1) (by omega)).2.2.1 ∗ owns (c : Thread nD τ) scM2_1 fullShare (outsAt2 V c (n - 1) (by omega)).2.2.2) ∗ restBut2 c) ∗ (∃ r, prngReg c r)) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = (outsAt2 V c t.val t.isLt).1 := by dsimp only [dat2]
theorem after2_5 (c : Dev nD) (t : Fin cfg2.N) : (dat2 V c).after 5 t = (outsAt2 V c t.val t.isLt).2.1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  have hN : t.val < 10 := lt_of_lt_of_eq t.isLt (show cfg2.N = 10 from N_2)
  by_cases h0 : t.val = 0
  · have h1 : ¬t.val = 9 := by omega
    rw [Dat.leavesExact_idle (dat2 V c) 4 t (idleAt2_4 t (fun h => h1 ((hcond2_1 t).mp h))) (noFlush2_4 t (fun h => h1 ((hcond2_1 t).mp h)))]
    rw [Dat.leavesExact_idle (dat2 V c) 5 t (idleAt2_5 t (fun h => h1 ((hcond2_1 t).mp h))) (noFlush2_5 t (fun h => h1 ((hcond2_1 t).mp h)))]
    rw [outsAt2_A V c t h0 h1]
    dsimp only [at2]; unfold sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases h1 : t.val = 9
    · rw [show (dat2 V c).leavesExact 4 t = owns (c : Thread nD τ) (ms2_4 t) fullShare ((dat2 V c).after 4 t) from by
        unfold Dat.leavesExact; rw [liveAt2_4 t ((hcond2_1 t).mpr h1)], after2_4]
      rw [show (dat2 V c).leavesExact 5 t = owns (c : Thread nD τ) (ms2_5 t) fullShare ((dat2 V c).after 5 t) from by
        unfold Dat.leavesExact; rw [liveAt2_5 t ((hcond2_1 t).mpr h1)], after2_5]
      rw [outsAt2_C V c t h0 h1]
      dsimp only [at2]; unfold out2_C_4 out2_C_5 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover2_C_4 c _ _ _ _ _ _ _ _ _ _ _ _ _ _ _ _ _ _ _ _ _ _ _ _ _)
      unfold owns; iexists _; isplitr
      swap; · iexact H5
      ipureintro; exact View.read_writes_of_cover _ _ _ _ _ (cover2_C_5 c _ _ _ _ _ _ _ _ _ _ _ _ _ _ _ _ _ _ _ _ _ _ _ _ _)
    · rw [Dat.leavesExact_idle (dat2 V c) 4 t (idleAt2_4 t (fun h => h1 ((hcond2_1 t).mp h))) (noFlush2_4 t (fun h => h1 ((hcond2_1 t).mp h)))]
      rw [Dat.leavesExact_idle (dat2 V c) 5 t (idleAt2_5 t (fun h => h1 ((hcond2_1 t).mp h))) (noFlush2_5 t (fun h => h1 ((hcond2_1 t).mp h)))]
      rw [outsAt2_B V c t h0 h1]
      dsimp only [at2]; unfold sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨⟨HS0, HS1⟩, HR⟩, Hg⟩
  isplitl [HS0 HS1 HR]
  · isplitl [HS0 HS1]
    · isplitl [HS0]
      · iexists _; iexact HS0
      iexists _; iexact HS1
    iexact HR
  iexact Hg

theorem hout2 (c : Dev nD) : (dat2 V c).Φ (Fin.last cfg2.N) ⊢ Pipeline.ΦA spec2 c :=
  Phi_out2 V c _ (by rw [Fin.val_last]; have : cfg2.N = 10 := N_2; omega)

theorem scr0_at_A (c : Dev nD) (t : Fin cfg2.N) (h0 : t.val = 0) (h1 : ¬t.val = 9) :
    (outsAt2 V c t.val t.isLt).2.2.1 = k2_pay5 (iblk2 V c 1 t) (iblk2 V c 0 t) (iblk2 V c 2 t) (iblk2 V c 3 t) (k2_pay2 (F := F)) := by
  rw [outsAt2_A V c t h0 h1]; dsimp only
  exact sout2_A_0_eq (F := F) c _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)

theorem scr1_at_A (c : Dev nD) (t : Fin cfg2.N) (h0 : t.val = 0) (h1 : ¬t.val = 9) :
    (outsAt2 V c t.val t.isLt).2.2.2 = k2_pay1 (k2_pay6 (iblk2 V c 3 t) (k2_pay3 (F := F))) := by
  rw [outsAt2_A V c t h0 h1]; dsimp only
  exact sout2_A_1_eq (F := F) c _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t)

theorem scr0_at_pos (c : Dev nD) (t : Fin cfg2.N) (h0 : ¬t.val = 0) :
    (outsAt2 V c t.val t.isLt).2.2.1 = k2_pay5 (iblk2 V c 1 t) (iblk2 V c 0 t) (iblk2 V c 2 t) (iblk2 V c 3 t) (prev2 V c t).2.2.1 := by
  by_cases h1 : t.val = 9
  · rw [outsAt2_C V c t h0 h1]; dsimp only
    exact sout2_C_0_eq (F := F) c _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (prev2 V c t).2.2.1 (prev2 V c t).2.2.2
  · rw [outsAt2_B V c t h0 h1]; dsimp only
    exact sout2_B_0_eq (F := F) c _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (prev2 V c t).2.2.1 (prev2 V c t).2.2.2

theorem scr1_at_pos (c : Dev nD) (t : Fin cfg2.N) (h0 : ¬t.val = 0) :
    (outsAt2 V c t.val t.isLt).2.2.2 = k2_pay1 (k2_pay6 (iblk2 V c 3 t) (prev2 V c t).2.2.2) := by
  by_cases h1 : t.val = 9
  · rw [outsAt2_C V c t h0 h1]; dsimp only
    exact sout2_C_1_eq (F := F) c _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (prev2 V c t).2.2.1 (prev2 V c t).2.2.2
  · rw [outsAt2_B V c t h0 h1]; dsimp only
    exact sout2_B_1_eq (F := F) c _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (prev2 V c t).2.2.1 (prev2 V c t).2.2.2

theorem out4_at_C (c : Dev nD) (t : Fin cfg2.N) (h0 : ¬t.val = 0) (h1 : t.val = 9) :
    (outsAt2 V c t.val t.isLt).1 = (outsAt2 V c t.val t.isLt).2.2.1 := by
  rw [outsAt2_C V c t h0 h1]; dsimp only
  exact (out2_C_4_eq (F := F) c _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (prev2 V c t).2.2.1 (prev2 V c t).2.2.2).trans
    (sout2_C_0_eq (F := F) c _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (prev2 V c t).2.2.1 (prev2 V c t).2.2.2).symm

theorem out5_at_C (c : Dev nD) (t : Fin cfg2.N) (h0 : ¬t.val = 0) (h1 : t.val = 9) :
    (outsAt2 V c t.val t.isLt).2.1 = (outsAt2 V c t.val t.isLt).2.2.2 := by
  rw [outsAt2_C V c t h0 h1]; dsimp only
  exact (out2_C_5_eq (F := F) c _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (prev2 V c t).2.2.1 (prev2 V c t).2.2.2).trans
    (sout2_C_1_eq (F := F) c _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (prev2 V c t).2.2.1 (prev2 V c t).2.2.2).symm

theorem scr0_zero (c : Dev nD) (h0 : 0 < cfg2.N) : (outsAt2 V c 0 h0).2.2.1 = k2_pay5 (iblk2 V c 1 ⟨0, h0⟩) (iblk2 V c 0 ⟨0, h0⟩) (iblk2 V c 2 ⟨0, h0⟩) (iblk2 V c 3 ⟨0, h0⟩) (k2_pay2 (F := F)) :=
  scr0_at_A V c ⟨0, h0⟩ rfl (show ¬((0 : ℕ) = 9) by omega)
theorem scr0_succ (c : Dev nD) (n : ℕ) (hn : n + 1 < cfg2.N) : (outsAt2 V c (n + 1) hn).2.2.1 = k2_pay5 (iblk2 V c 1 ⟨n + 1, hn⟩) (iblk2 V c 0 ⟨n + 1, hn⟩) (iblk2 V c 2 ⟨n + 1, hn⟩) (iblk2 V c 3 ⟨n + 1, hn⟩) (outsAt2 V c n (Nat.lt_of_succ_lt hn)).2.2.1 :=
  scr0_at_pos V c ⟨n + 1, hn⟩ (Nat.succ_ne_zero n)
theorem scr1_zero (c : Dev nD) (h0 : 0 < cfg2.N) : (outsAt2 V c 0 h0).2.2.2 = k2_pay1 (k2_pay6 (iblk2 V c 3 ⟨0, h0⟩) (k2_pay3 (F := F))) :=
  scr1_at_A V c ⟨0, h0⟩ rfl (show ¬((0 : ℕ) = 9) by omega)
theorem scr1_succ (c : Dev nD) (n : ℕ) (hn : n + 1 < cfg2.N) : (outsAt2 V c (n + 1) hn).2.2.2 = k2_pay1 (k2_pay6 (iblk2 V c 3 ⟨n + 1, hn⟩) (outsAt2 V c n (Nat.lt_of_succ_lt hn)).2.2.2) :=
  scr1_at_pos V c ⟨n + 1, hn⟩ (Nat.succ_ne_zero n)
theorem out4_of_eq (c : Dev nD) (n : ℕ) (hn : n < cfg2.N) (h9 : n = 9) : (outsAt2 V c n hn).1 = (outsAt2 V c n hn).2.2.1 :=
  out4_at_C V c ⟨n, hn⟩ (show ¬(n = 0) by omega) h9
theorem out5_of_eq (c : Dev nD) (n : ℕ) (hn : n < cfg2.N) (h9 : n = 9) : (outsAt2 V c n hn).2.1 = (outsAt2 V c n hn).2.2.2 :=
  out5_at_C V c ⟨n, hn⟩ (show ¬(n = 0) by omega) h9
theorem out4_last (c : Dev nD) (h9 : 9 < cfg2.N) : (outsAt2 V c 9 h9).1 = (outsAt2 V c 9 h9).2.2.1 :=
  out4_of_eq V c 9 h9 rfl
theorem out5_last (c : Dev nD) (h9 : 9 < cfg2.N) : (outsAt2 V c 9 h9).2.1 = (outsAt2 V c 9 h9).2.2.2 :=
  out5_of_eq V c 9 h9 rfl

end Region2

end Cert.KernelIdeal.Hand

end
-- ==== Proof.KI.R3.lean ====
import proofs.«407291_j19164144075375_2_alg».proof.Proof.Gen.KernelIdeal.Launch
import proofs.«407291_j19164144075375_2_alg».proof.Proof.Gen.KernelIdeal.Skeleton
import proofs.«407291_j19164144075375_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region3
variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_0 : Rect S64x192 := Rect.unit (s := S64x192) ![0, 0] S64x192.size inb_S64x192_S64x192_0_0
abbrev r3_1 : Rect S192x256 := Rect.unit (s := S192x256) ![0, 0] S192x256.size inb_S192x256_S192x256_0_0
abbrev r3_2 : Rect S1x256 := Rect.unit (s := S1x256) ![0, 0] S1x256.size inb_S1x256_S1x256_0_0
abbrev r3_3 : Rect S256x8 := Rect.unit (s := S256x8) ![0, 0] S256x8.size inb_S256x8_S256x8_0_0
abbrev r3_4 : Rect S1x8 := Rect.unit (s := S1x8) ![0, 0] S1x8.size inb_S1x8_S1x8_0_0
abbrev r3_5 : Rect S64x8 := Rect.unit (s := S64x8) ![0, 0] S64x8.size inb_S64x8_S64x8_0_0

def out3_5 (x0 : Vec F S64x192 .f32) (x1 : Vec F S192x256 .f32) (x2 : Vec F S1x256 .f32) (x3 : Vec F S256x8 .f32) (x4 : Vec F S1x8 .f32) : Vec F S64x8 .f32 :=
  View.canon [⟨r3_5, k3_pay1 (View.ld x0 r3_0) (View.ld x1 r3_1) (View.ld x2 r3_2) (View.ld x3 r3_3) (View.ld x4 r3_4)⟩]

theorem off_zero : (![0, 0] : Fin 2 → Nat) = fun _ => 0 := by
  funext a; match a with | ⟨0, _⟩ => rfl | ⟨1, _⟩ => rfl

theorem out3_5_eq (x0 : Vec F S64x192 .f32) (x1 : Vec F S192x256 .f32) (x2 : Vec F S1x256 .f32) (x3 : Vec F S256x8 .f32) (x4 : Vec F S1x8 .f32) :
    out3_5 x0 x1 x2 x3 x4 = k3_pay1 x0 x1 x2 x3 x4 := by
  unfold out3_5
  rw [View.canon_unit_zero (S := S64x8) off_zero]
  rw [View.ld_unit_zero (S := S64x192) off_zero, View.ld_unit_zero (S := S192x256) off_zero,
    View.ld_unit_zero (S := S1x256) off_zero, View.ld_unit_zero (S := S256x8) off_zero,
    View.ld_unit_zero (S := S1x8) off_zero]

theorem cover3_5 (p0 : Vec F S64x8 .f32) (y : S64x8.Idx) :
    ∃ pc ∈ ([⟨r3_5, p0⟩] : List (View.Piece (Elt F) S64x8 .f32)), y ∈ pc.1.set :=
  ⟨_, List.mem_singleton_self _, View.mem_set_unit_zero (S := S64x8) off_zero inb_S64x8_S64x8_0_0 y⟩

set_option maxHeartbeats 1000000 in
theorem sound_kernel3 (c : Dev nD) (E : Set ℕ) (i : grid3.Coords)
    (arg1 : Memref sig .tc .vmem S64x192 .f32) (harg1 : arg1.IsWhole) (arg2 : Memref sig .tc .vmem S192x256 .f32) (harg2 : arg2.IsWhole)
    (arg3 : Memref sig .tc .vmem S1x256 .f32) (harg3 : arg3.IsWhole) (arg4 : Memref sig .tc .vmem S256x8 .f32) (harg4 : arg4.IsWhole)
    (arg5 : Memref sig .tc .vmem S1x8 .f32) (harg5 : arg5.IsWhole) (arg6 : Memref sig .tc .vmem S64x8 .f32) (harg6 : arg6.IsWhole)
    (x0 : Vec F S64x192 .f32) (x1 : Vec F S192x256 .f32) (x2 : Vec F S1x256 .f32) (x3 : Vec F S256x8 .f32) (x4 : Vec F S1x8 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__mlp_head_kernel i arg1 harg1 arg2 harg2 arg3 harg3 arg4 harg4 arg5 harg5 arg6 harg6) K := by
  simp only [cc3__mlp_head_kernel_eq_skeleton]; unfold cc3__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KI.RunVals.lean ====
import proofs.«407291_j19164144075375_2_alg».proof.Proof.Gen.KernelIdeal.Regions
import proofs.«407291_j19164144075375_2_alg».proof.Proof.KI.R0
import proofs.«407291_j19164144075375_2_alg».proof.Proof.KI.R1
import proofs.«407291_j19164144075375_2_alg».proof.Proof.KI.R2
import proofs.«407291_j19164144075375_2_alg».proof.Proof.KI.R3
import Idealize.ShloMosaic.Lib.Pipeline.FrameSuffix
import Idealize.ShloMosaic.Lib.Pipeline.RegionsLoop
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev W0 (m : (ℓ : Loc nD τ sig) → Buf (Elt F) ℓ) (ρ : Dev nD → PrngReg) : Dev nD → Valuation τ sig (Elt F) := fun c b => m (c, b)

variable (m : (ℓ : Loc nD τ sig) → Buf (Elt F) ℓ) (ρ : Dev nD → PrngReg)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

abbrev W9 : Dev nD → Valuation τ sig (Elt F) := fun c => StableHlo.after hostOps3 (W8 m ρ c)
abbrev V9 : (c : Dev nD) → (b : Ref sig .tc) → Buf (Elt F) ((c : Thread nD τ).loc b) := fun c b => W9 m ρ c b

def W10 (c : Dev nD) : Valuation τ sig (Elt F) :=
  Pipeline.withArrays spec3 c (W9 m ρ c) fun w => (dat3 (V9 m ρ) c).arrAt w cfg3.N
theorem W10_arr (c : Dev nD) (w : Fin cfg3.W) :
    W10 m ρ c (Proc.devRef .tc (Pipeline.arrRef spec3 w)) = (dat3 (V9 m ρ) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m ρ c (Proc.devRef .tc b) = W9 m ρ c (Proc.devRef .tc b) := by
  unfold W10; exact Pipeline.withArrays_of_ne spec3 c _ _ b hb
abbrev V10 : (c : Dev nD) → (b : Ref sig .tc) → Buf (Elt F) ((c : Thread nD τ).loc b) := fun c b => W10 m ρ c b
theorem hF3 (c : Dev nD) (w : Fin cfg3.W) : (dat3 (V9 m ρ) c).arrAt w cfg3.N = V10 m ρ c (Pipeline.arrRef spec3 w) :=
  (W10_arr m ρ c w).symm
theorem hrest3 (c : Dev nD) : ∀ b, b ∉ Finset.univ.image (Pipeline.arrRef spec3) → V10 m ρ c b = V9 m ρ c b :=
  fun b hb => W10_of_ne m ρ c b fun w e => hb (Finset.mem_image.mpr ⟨w, Finset.mem_univ _, e⟩)

abbrev W11 : Dev nD → Valuation τ sig (Elt F) := fun c => StableHlo.after hostOps4 (W10 m ρ c)

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W2_of (c : Dev nD) (r : Ref sig .tc) (h : r ∉ hostOps0_1_W) :
    W2 m ρ c (Proc.devRef .tc r) = W1 m ρ c (Proc.devRef .tc r) :=
  StableHlo.after_of_writes_sub hostOps0_1 _ hostOps0_1_writes h
theorem W3_of (c : Dev nD) (r : Ref sig .tc) (h : r ∉ hostOps0_2_W) :
    W3 m ρ c (Proc.devRef .tc r) = W2 m ρ c (Proc.devRef .tc r) :=
  StableHlo.after_of_writes_sub hostOps0_2 _ hostOps0_2_writes h
theorem W5_of (c : Dev nD) (r : Ref sig .tc) (h : r ∉ hostOps1_W) :
    W5 m ρ c (Proc.devRef .tc r) = W4 m ρ c (Proc.devRef .tc r) :=
  StableHlo.after_of_writes_sub hostOps1 _ hostOps1_writes h
theorem W7_of (c : Dev nD) (r : Ref sig .tc) (h : r ∉ hostOps2_W) :
    W7 m ρ c (Proc.devRef .tc r) = W6 m ρ c (Proc.devRef .tc r) :=
  StableHlo.after_of_writes_sub hostOps2 _ hostOps2_writes h
theorem W9_of (c : Dev nD) (r : Ref sig .tc) (h : r ∉ hostOps3_W) :
    W9 m ρ c (Proc.devRef .tc r) = W8 m ρ c (Proc.devRef .tc r) :=
  StableHlo.after_of_writes_sub hostOps3 _ hostOps3_writes h
theorem W11_of (c : Dev nD) (r : Ref sig .tc) (h : r ∉ hostOps4_W) :
    W11 m ρ c (Proc.devRef .tc r) = W10 m ρ c (Proc.devRef .tc r) :=
  StableHlo.after_of_writes_sub hostOps4 _ hostOps4_writes h

theorem W4_keep (c : Dev nD) (b : Ref sig .tc) (h : ∀ w, Pipeline.arrRef spec0 w = b → (cfg0.win w).isOut = false) :
    W4 m ρ c (Proc.devRef .tc b) = W3 m ρ c (Proc.devRef .tc b) := by
  by_cases hb : ∃ w, Pipeline.arrRef spec0 w = b
  · obtain ⟨w, rfl⟩ := hb
    exact (W4_arr m ρ c w).trans (((dat0 (V3 m ρ) c).arrAt_in w (h w rfl) _).trans (A_eq0 (V3 m ρ) c w))
  · exact W4_of_ne m ρ c b fun w e => hb ⟨w, e⟩
theorem W6_keep (c : Dev nD) (b : Ref sig .tc) (h : ∀ w, Pipeline.arrRef spec1 w = b → (cfg1.win w).isOut = false) :
    W6 m ρ c (Proc.devRef .tc b) = W5 m ρ c (Proc.devRef .tc b) := by
  by_cases hb : ∃ w, Pipeline.arrRef spec1 w = b
  · obtain ⟨w, rfl⟩ := hb
    exact (W6_arr m ρ c w).trans (((dat1 (V5 m ρ) c).arrAt_in w (h w rfl) _).trans (A_eq1 (V5 m ρ) c w))
  · exact W6_of_ne m ρ c b fun w e => hb ⟨w, e⟩
theorem W8_keep (c : Dev nD) (b : Ref sig .tc) (h : ∀ w, Pipeline.arrRef spec2 w = b → (cfg2.win w).isOut = false) :
    W8 m ρ c (Proc.devRef .tc b) = W7 m ρ c (Proc.devRef .tc b) := by
  by_cases hb : ∃ w, Pipeline.arrRef spec2 w = b
  · obtain ⟨w, rfl⟩ := hb
    exact (W8_arr m ρ c w).trans (((dat2 (V7 m ρ) c).arrAt_in w (h w rfl) _).trans (A_eq2 (V7 m ρ) c w))
  · exact W8_of_ne m ρ c b fun w e => hb ⟨w, e⟩
theorem W10_keep (c : Dev nD) (b : Ref sig .tc) (h : ∀ w, Pipeline.arrRef spec3 w = b → (cfg3.win w).isOut = false) :
    W10 m ρ c (Proc.devRef .tc b) = W9 m ρ c (Proc.devRef .tc b) := by
  by_cases hb : ∃ w, Pipeline.arrRef spec3 w = b
  · obtain ⟨w, rfl⟩ := hb
    exact (W10_arr m ρ c w).trans (((dat3 (V9 m ρ) c).arrAt_in w (h w rfl) _).trans (A_eq3 (V9 m ρ) c w))
  · exact W10_of_ne m ρ c b fun w e => hb ⟨w, e⟩

abbrev Kept3 (b : Ref sig .tc) : Prop := b ∉ hostOps0_W ∧ b ∉ hostOps0_1_W ∧ b ∉ hostOps0_2_W
abbrev Kept5 (b : Ref sig .tc) : Prop := Kept3 b ∧ (∀ w, Pipeline.arrRef spec0 w = b → (cfg0.win w).isOut = false) ∧ b ∉ hostOps1_W
abbrev Kept7 (b : Ref sig .tc) : Prop := Kept5 b ∧ (∀ w, Pipeline.arrRef spec1 w = b → (cfg1.win w).isOut = false) ∧ b ∉ hostOps2_W
abbrev Kept9 (b : Ref sig .tc) : Prop := Kept7 b ∧ (∀ w, Pipeline.arrRef spec2 w = b → (cfg2.win w).isOut = false) ∧ b ∉ hostOps3_W
abbrev Kept11 (b : Ref sig .tc) : Prop := Kept9 b ∧ (∀ w, Pipeline.arrRef spec3 w = b → (cfg3.win w).isOut = false) ∧ b ∉ hostOps4_W

theorem W3_arg (c : Dev nD) (b : Ref sig .tc) (h : Kept3 b) : W3 m ρ c (Proc.devRef .tc b) = m ((c : Thread nD τ).loc b) :=
  (W3_of m ρ c b h.2.2).trans <| (W2_of m ρ c b h.2.1).trans <| (W1_of m ρ c b h.1).trans rfl
theorem W5_arg (c : Dev nD) (b : Ref sig .tc) (h : Kept5 b) : W5 m ρ c (Proc.devRef .tc b) = m ((c : Thread nD τ).loc b) :=
  (W5_of m ρ c b h.2.2).trans <| (W4_keep m ρ c b h.2.1).trans (W3_arg m ρ c b h.1)
theorem W7_arg (c : Dev nD) (b : Ref sig .tc) (h : Kept7 b) : W7 m ρ c (Proc.devRef .tc b) = m ((c : Thread nD τ).loc b) :=
  (W7_of m ρ c b h.2.2).trans <| (W6_keep m ρ c b h.2.1).trans (W5_arg m ρ c b h.1)
theorem W9_arg (c : Dev nD) (b : Ref sig .tc) (h : Kept9 b) : W9 m ρ c (Proc.devRef .tc b) = m ((c : Thread nD τ).loc b) :=
  (W9_of m ρ c b h.2.2).trans <| (W8_keep m ρ c b h.2.1).trans (W7_arg m ρ c b h.1)
theorem W11_arg (c : Dev nD) (b : Ref sig .tc) (h : Kept11 b) : W11 m ρ c (Proc.devRef .tc b) = m ((c : Thread nD τ).loc b) :=
  (W11_of m ρ c b h.2.2).trans <| (W10_keep m ρ c b h.2.1).trans (W9_arg m ρ c b h.1)

end Cert.KernelIdeal.Hand

end
-- ==== Proof.KI.Run.lean ====
import proofs.«407291_j19164144075375_2_alg».proof.Proof.Gen.KernelIdeal.Regions
import proofs.«407291_j19164144075375_2_alg».proof.Proof.KI.RunVals
import Idealize.ShloMosaic.Lib.Pipeline.FrameBody
import Idealize.ShloMosaic.Lib.Pipeline.Regions
import Idealize.ShloMosaic.Lib.Pipeline.RegionsLoop
import Idealize.ShloMosaic.Lib.Pipeline.Frame
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

def pdats : (p : Fin 4) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
  | ⟨3, _⟩ => fun c => dat3 (V9 m ρ) c
abbrev 𝒱₀ : Variants := Variants.none
abbrev L₀ : GSem nD τ sig → Finset Unit := fun _ => ∅
abbrev lv₀ : GSem nD τ sig → Unit → ℕ := fun _ _ => 0
abbrev Rest (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m ρ c) ∗ ∃ r, prngReg c r)

theorem last_chain (c : Dev nD) :
    iprop(StableHlo.held (c : Thread nD τ) (Pipeline.ucRefs τ sig) (W11 m ρ c) ∗ Rest (F := F) c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
def reg0 : Pipeline.RegionSeg (pcfgs (F := F)) adm (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L₀ lv₀ 0 fun _ _ => rfl
  pre c := iprop(StableHlo.held (c : Thread nD τ) (Pipeline.ucRefs τ sig) (W3 m ρ c) ∗ Rest c)
  post c := iprop(StableHlo.held (c : Thread nD τ) (Pipeline.ucRefs τ sig) (W4 m ρ c) ∗ Rest c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L₀ lv₀ 1 fun _ _ => rfl
  pre c := iprop(StableHlo.held (c : Thread nD τ) (Pipeline.ucRefs τ sig) (W5 m ρ c) ∗ Rest c)
  post c := iprop(StableHlo.held (c : Thread nD τ) (Pipeline.ucRefs τ sig) (W6 m ρ c) ∗ Rest c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m ρ) () defs₀ 𝒱₀ L₀ lv₀ 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L₀ lv₀ 2 fun _ _ => rfl
  pre c := iprop(StableHlo.held (c : Thread nD τ) (Pipeline.ucRefs τ sig) (W7 m ρ c) ∗ Rest c)
  post c := iprop(StableHlo.held (c : Thread nD τ) (Pipeline.ucRefs τ sig) (W8 m ρ c) ∗ Rest c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = (dat2 (V7 m ρ) c).Φ 0 from rfl]
    refine BIBase.Entails.trans ?_ (hin2 (V7 m ρ) c)
    unfold Pipeline.ΦA
    iintro ⟨Hp, -, Hr⟩
    isplitl [Hr]; · iexact Hr
    iexact Hp
  hout c := by
    rw [Pipeline.ownSems0_none, show (pdats m ρ 2 c).Φ (Fin.last _) = (dat2 (V7 m ρ) c).Φ (Fin.last cfg2.N) from rfl]
    refine BIBase.Entails.trans (hout2 (V7 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg3 : Pipeline.RegionSeg (pcfgs (F := F)) adm (pdats m ρ) () defs₀ 𝒱₀ L₀ lv₀ 3 where
  win := launch3.win.to₀
  block_pos := launch3.block_pos
  stage_whole := launch3.stage_whole
  K := PEmpty
  osem k := k.elim
  ho := Pipeline.OwnSemFacts.none _
  hbody c := (body_obligation3 (V9 m ρ) c).loose
  hwaits := Pipeline.hwaits_of_owed_zero _ _ _ _ L₀ lv₀ 3 fun _ _ => rfl
  pre c := iprop(StableHlo.held (c : Thread nD τ) (Pipeline.ucRefs τ sig) (W9 m ρ c) ∗ Rest c)
  post c := iprop(StableHlo.held (c : Thread nD τ) (Pipeline.ucRefs τ sig) (W10 m ρ c) ∗ Rest c)
  X c := iprop(∃ r, prngReg c r)
  Y c := iprop(∃ r, prngReg c r)
  Z c := Pipeline.unscopedRest (Ix := Unit) (Name := ℕ) (U := UR sig nD τ) (Lvl := ℕ) spec3 c (V9 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V9 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V9 m ρ c) (V10 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs (c : Dev nD) : List (Pipeline.Seg (pcfgs (F := F)) adm (pdats m ρ) () defs₀ 𝒱₀ L₀ lv₀) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)),
    .region (reg3 m ρ),
    .host (hseg hostOps4 hostOps4_sub hostOps4_fresh (W10 m ρ)) ]

set_option backward.isDefEq.respectTransparency.types false in
theorem run_all : θ_run defs (onTc (τ := τ) (main (F := F))) ⟨m, fun _ => 0, ρ⟩
    (fun r => ∀ c : Dev nD, ∀ b ∈ Pipeline.ucRefs τ sig, r.2.mem ((c : Thread nD τ).1, b) = W11 m ρ c b) :=
  Pipeline.θ_run_regions_kit_dev (pcfgs (F := F)) adm (pdats m ρ) () cellOf_inj emb₁ defs₀ 𝒱₀ L₀ lv₀ m ρ main (segs m ρ)
    (fun c Q => by
      rewrite [main_chain c, Pipeline.Seg.run_eq_chain,
        show (segs m ρ c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tₙ m ρ)
    (hch := fun c => ⟨.rfl, .rfl, .rfl, .rfl, .rfl, .rfl, .rfl, .rfl, .rfl, .rfl, .rfl, last_chain m ρ c⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

theorem run_value : θ_run defs (onTc (τ := τ) (main (F := F))) ⟨m, fun _ => 0, ρ⟩ (fun r => ∀ c : Dev nD,
      r.2.mem ((c.tc : Thread nD τ).loc main_v52) = W11 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c =>
    ⟨h c _ (mem_uc main_v52 (by decide)),
     (h c _ (mem_uc main_arg0 (by decide))).trans (W11_arg m ρ c main_arg0 (by decide)),
     (h c _ (mem_uc main_arg1 (by decide))).trans (W11_arg m ρ c main_arg1 (by decide)),
     (h c _ (mem_uc main_arg2 (by decide))).trans (W11_arg m ρ c main_arg2 (by decide)),
     (h c _ (mem_uc main_arg3 (by decide))).trans (W11_arg m ρ c main_arg3 (by decide)),
     (h c _ (mem_uc main_arg4 (by decide))).trans (W11_arg m ρ c main_arg4 (by decide)),
     (h c _ (mem_uc main_arg5 (by decide))).trans (W11_arg m ρ c main_arg5 (by decide)),
     (h c _ (mem_uc main_arg6 (by decide))).trans (W11_arg m ρ c main_arg6 (by decide)),
     (h c _ (mem_uc main_arg7 (by decide))).trans (W11_arg m ρ c main_arg7 (by decide)),
     (h c _ (mem_uc main_arg8 (by decide))).trans (W11_arg m ρ c main_arg8 (by decide)),
     (h c _ (mem_uc main_arg9 (by decide))).trans (W11_arg m ρ c main_arg9 (by decide)),
     (h c _ (mem_uc main_arg10 (by decide))).trans (W11_arg m ρ c main_arg10 (by decide)),
     (h c _ (mem_uc main_arg11 (by decide))).trans (W11_arg m ρ c main_arg11 (by decide))⟩)
    (run_all m ρ)

end Cert.KernelIdeal.Hand

end
-- ==== Proof.Val.KIdx.lean ====
import proofs.«407291_j19164144075375_2_alg».proof.Proof.Gen.KernelIdeal.Launch

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]

def kRow0 (x1 : (⟨S2x500000, .i32⟩ : BufTy).Contents (Elt F)) : (⟨S1x500000, .i32⟩ : BufTy).Contents (Elt F) :=
  extractStridedSlice S1x500000 ![0, 0] (x1) slices_S2x500000_S1x500000_0_0

def kSrcE (x1 : (⟨S2x500000, .i32⟩ : BufTy).Contents (Elt F)) : (⟨S500000, .i32⟩ : BufTy).Contents (Elt F) :=
  shapeCast _ (kRow0 (F := F) x1) shapeCasts_S1x500000_S500000

def kRow1 (x1 : (⟨S2x500000, .i32⟩ : BufTy).Contents (Elt F)) : (⟨S1x500000, .i32⟩ : BufTy).Contents (Elt F) :=
  extractStridedSlice S1x500000 ![1, 0] (x1) slices_S2x500000_S1x500000_1_0

def kDstE (x1 : (⟨S2x500000, .i32⟩ : BufTy).Contents (Elt F)) : (⟨S500000, .i32⟩ : BufTy).Contents (Elt F) :=
  shapeCast _ (kRow1 (F := F) x1) shapeCasts_S1x500000_S500000

def kIota : (⟨S50000, .i32⟩ : BufTy).Contents (Elt F) :=
  iotaInDim S50000 32 0

def kSrc (x1 : (⟨S2x500000, .i32⟩ : BufTy).Contents (Elt F)) : (⟨S550000, .i32⟩ : BufTy).Contents (Elt F) :=
  concatenate S550000 0 [⟨S500000, (kSrcE (F := F) x1)⟩, ⟨S50000, (kIota (F := F))⟩] concatenates_S500000_S50000_S550000_d0

def kDst (x1 : (⟨S2x500000, .i32⟩ : BufTy).Contents (Elt F)) : (⟨S550000, .i32⟩ : BufTy).Contents (Elt F) :=
  concatenate S550000 0 [⟨S500000, (kDstE (F := F) x1)⟩, ⟨S50000, (kIota (F := F))⟩] concatenates_S500000_S50000_S550000_d0

def kCol (x1 : (⟨S2x500000, .i32⟩ : BufTy).Contents (Elt F)) : (⟨S550000x1, .i32⟩ : BufTy).Contents (Elt F) :=
  broadcastInDim S550000x1 ![0] bcast_S550000_S550000x1_0 (kDst (F := F) x1)

def kZeroI : (⟨S_, .i32⟩ : BufTy).Contents (Elt F) :=
  constantI S_ 32 0#32

def kZerosI : (⟨S550000, .i32⟩ : BufTy).Contents (Elt F) :=
  broadcastInDim S550000 ![] bcast_S_S550000 (kZeroI (F := F))

def kNeg (x1 : (⟨S2x500000, .i32⟩ : BufTy).Contents (Elt F)) : (⟨S550000, .i1⟩ : BufTy).Contents (Elt F) :=
  cmpi .slt (kSrc (F := F) x1) (kZerosI (F := F))

def kNodesI : (⟨S_, .i32⟩ : BufTy).Contents (Elt F) :=
  constantI S_ 32 50000#32

def kNodesIs : (⟨S550000, .i32⟩ : BufTy).Contents (Elt F) :=
  broadcastInDim S550000 ![] bcast_S_S550000 (kNodesI (F := F))

def kSrcPlus (x1 : (⟨S2x500000, .i32⟩ : BufTy).Contents (Elt F)) : (⟨S550000, .i32⟩ : BufTy).Contents (Elt F) :=
  addi (kSrc (F := F) x1) (kNodesIs (F := F))

def kSrcW (x1 : (⟨S2x500000, .i32⟩ : BufTy).Contents (Elt F)) : (⟨S550000, .i32⟩ : BufTy).Contents (Elt F) :=
  select (kNeg (F := F) x1) (kSrcPlus (F := F) x1) (kSrc (F := F) x1)

def kRowW (x1 : (⟨S2x500000, .i32⟩ : BufTy).Contents (Elt F)) : (⟨S550000x1, .i32⟩ : BufTy).Contents (Elt F) :=
  broadcastInDim S550000x1 ![0] bcast_S550000_S550000x1_0 (kSrcW (F := F) x1)

def kOne : (⟨S_, .f32⟩ : BufTy).Contents (Elt F) :=
  constant S_ .f32 0x3F800000#32

def kOnes : (⟨S550000, .f32⟩ : BufTy).Contents (Elt F) :=
  broadcastInDim S550000 ![] bcast_S_S550000 (kOne (F := F))

def kZero : (⟨S_, .f32⟩ : BufTy).Contents (Elt F) :=
  constant S_ .f32 0x00000000#32

def kZeros : (⟨S50000, .f32⟩ : BufTy).Contents (Elt F) :=
  broadcastInDim S50000 ![] bcast_S_S50000 (kZero (F := F))

def kDeg (x1 : (⟨S2x500000, .i32⟩ : BufTy).Contents (Elt F)) : (⟨S50000, .f32⟩ : BufTy).Contents (Elt F) :=
  Host.scatterAdd scatter_S50000_S550000x1_S550000_n_0_0_1 (kZeros (F := F)) (kCol (F := F) x1) (kOnes (F := F))

def kZero' : (⟨S_, .f32⟩ : BufTy).Contents (Elt F) :=
  constant S_ .f32 0x00000000#32

def kZeros' : (⟨S50000, .f32⟩ : BufTy).Contents (Elt F) :=
  broadcastInDim S50000 ![] bcast_S_S50000 (kZero' (F := F))

def kPos (x1 : (⟨S2x500000, .i32⟩ : BufTy).Contents (Elt F)) : (⟨S50000, .i1⟩ : BufTy).Contents (Elt F) :=
  cmpf (F := F) .ogt (kDeg (F := F) x1) (kZeros' (F := F))

def kRsqrt (x1 : (⟨S2x500000, .i32⟩ : BufTy).Contents (Elt F)) : (⟨S50000, .f32⟩ : BufTy).Contents (Elt F) :=
  Host.rsqrt (kDeg (F := F) x1)

def kElse : (⟨S_, .f32⟩ : BufTy).Contents (Elt F) :=
  constant S_ .f32 0x00000000#32

def kElse' : (⟨S_, .f32⟩ : BufTy).Contents (Elt F) :=
  id (kElse (F := F))

def kElses : (⟨S50000, .f32⟩ : BufTy).Contents (Elt F) :=
  broadcastInDim S50000 ![] bcast_S_S50000 (kElse' (F := F))

def kS (x1 : (⟨S2x500000, .i32⟩ : BufTy).Contents (Elt F)) : (⟨S50000, .f32⟩ : BufTy).Contents (Elt F) :=
  select (kPos (F := F) x1) (kRsqrt (F := F) x1) (kElses (F := F))

end Cert.KernelIdeal.Hand

end
-- ==== Proof.Val.KIdxEq.lean ====
import proofs.«407291_j19164144075375_2_alg».proof.Proof.Val.KIdx
import proofs.«407291_j19164144075375_2_alg».proof.Proof.RefReadP

noncomputable section

namespace Cert.Bridge

open Idealize.ShloMosaic
open Cert.KernelIdeal.Hand

theorem kCol_eq (x1 : (⟨Cert.KernelIdeal.S2x500000, .i32⟩ : BufTy).Contents (Elt Ideal)) :
    kCol (F := Ideal) x1 = Cert.ReferenceIdeal.ReadP.val_main_v42 (F := Ideal) x1 := rfl

theorem kRowW_eq (x1 : (⟨Cert.KernelIdeal.S2x500000, .i32⟩ : BufTy).Contents (Elt Ideal)) :
    kRowW (F := Ideal) x1 = Cert.ReferenceIdeal.ReadP.val_main_v36 (F := Ideal) x1 := rfl

theorem kS_eq (x1 : (⟨Cert.KernelIdeal.S2x500000, .i32⟩ : BufTy).Contents (Elt Ideal)) :
    kS (F := Ideal) x1 = Cert.ReferenceIdeal.ReadP.val_main_v15 (F := Ideal) x1 := rfl

theorem gatherRows_eq :
    Cert.KernelIdeal.gather_S50000x128_S550000x1_S550000x128_1_0_n_n_0_1_1128
      = Cert.ReferenceIdeal.gather_S50000x128_S550000x1_S550000x128_1_0_n_n_0_1_1128 := rfl

theorem scatterRows_eq :
    Cert.KernelIdeal.scatter_S50000x128_S550000x1_S550000x128_1_0_0_1
      = Cert.ReferenceIdeal.scatter_S50000x128_S550000x1_S550000x128_1_0_0_1 := rfl

end Cert.Bridge

end
-- ==== Proof.Alg.KSpec.lean ====
import Idealize.ShloMosaic.PureOps.Ideal
import Idealize.ShloMosaic.PureOps.ShapeOps
import Idealize.ShloMosaic.Lib.ValueIdx

noncomputable section

namespace Cert.KSpec

open Idealize.ShloMosaic Idealize.ShloMosaic.ValueIdx

abbrev T : Shape := ⟨2, ![50000, 128]⟩
abbrev N1 : Shape := ⟨1, ![50000]⟩
abbrev EI : Shape := ⟨2, ![550000, 1]⟩
abbrev E2 : Shape := ⟨2, ![550000, 128]⟩
abbrev M128 : Shape := ⟨2, ![128, 128]⟩
abbrev V128 : Shape := ⟨1, ![128]⟩
abbrev SV : Shape := ⟨2, ![64, 64]⟩
abbrev MG : Shape := ⟨2, ![192, 256]⟩
abbrev V256 : Shape := ⟨1, ![256]⟩
abbrev MF : Shape := ⟨2, ![256, 8]⟩
abbrev V8 : Shape := ⟨1, ![8]⟩

abbrev one : EReal := Ideal.ofBits .f32 0x3F800000#32

def tab (f : Fin 50000 → Fin 128 → EReal) : T.Idx → EReal := fun i => f (i 0) (i 1)

def lin (x : T.Idx → EReal) (w : M128.Idx → EReal) (s : N1.Idx → EReal) (n : Fin 50000) (k : Fin 128) : EReal :=
  (∑ j : Fin 128, x (ix2 n j) * w (ix2 j k)) * s (ix1 n)

def agg (dG : GatherDims T EI E2) (dS : ScatterDims T EI E2) (iR iC : IVec EI 32)
    (y : Fin 50000 → Fin 128 → EReal) (n : Fin 50000) (k : Fin 128) : EReal :=
  Ideal.hostScatterAdd dS (fun _ => 0) iC (Host.gather dG (tab y) iR) (ix2 n k)

def act (a : Fin 50000 → Fin 128 → EReal) (s : N1.Idx → EReal) (b : V128.Idx → EReal) (n : Fin 50000) (k : Fin 128) : EReal :=
  max (s (ix1 n) * a n k + b (ix1 k)) 0

def lin2 (a : Fin 50000 → Fin 128 → EReal) (s : N1.Idx → EReal) (b : V128.Idx → EReal) (w : M128.Idx → EReal)
    (n : Fin 50000) (k : Fin 128) : EReal :=
  (∑ j : Fin 128, act a s b n j * w (ix2 j k)) * s (ix1 n)

def hot (bt : IVec N1 32) (n : Fin 50000) (g : Fin 64) : EReal :=
  if bt (ix1 n) = BitVec.ofNat 32 g.val then 1 else 0

def pool (bt : IVec N1 32) (y : Fin 50000 → Fin 128 → EReal) (g : Fin 64) (k : Fin 128) : EReal :=
  ∑ n : Fin 50000, hot bt n g * y n k

def count (bt : IVec N1 32) (g : Fin 64) : EReal := ∑ n : Fin 50000, hot bt n g

def mean (p : Fin 64 → Fin 128 → EReal) (cn : Fin 64 → EReal) (g : Fin 64) (k : Fin 128) : EReal :=
  Ideal.div (p g k) (max (cn g) one)

def feat (mn : Fin 64 → Fin 128 → EReal) (sv : SV.Idx → EReal) (g : Fin 64) (i : Fin 192) : EReal :=
  if h : i.val < 128 then mn g ⟨i.val, h⟩ else sv (ix2 g ⟨i.val - 128, by omega⟩)

def head (z : Fin 64 → Fin 192 → EReal) (wg : MG.Idx → EReal) (bg : V256.Idx → EReal) (wf : MF.Idx → EReal)
    (bf : V8.Idx → EReal) (g : Fin 64) (a : Fin 8) : EReal :=
  Ideal.tanh ((∑ j : Fin 256, max ((∑ i : Fin 192, z g i * wg (ix2 i j)) + bg (ix1 j)) 0 * wf (ix2 j a)) + bf (ix1 a)) * one

end Cert.KSpec

end
-- ==== Proof.Val.F2.lean ====
import proofs.«407291_j19164144075375_2_alg».proof.Proof.KI.R2
import proofs.«407291_j19164144075375_2_alg».proof.Proof.Alg.KSpec
import Idealize.ShloMosaic.Lib.Pipeline.Value
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace F2

theorem bit_toInt_cast (b : Bool) : ((((BitVec.ofBool b).setWidth 32).toInt : ℝ) : EReal) = if b then 1 else 0 := by
  cases b <;> simp

theorem pay4_apply (v16 : Vec Ideal S5000x1 .i32) (r : Fin 5000) (g : Fin 64) :
    k2_pay4 (F := Ideal) v16 (ix2 r g) = if v16 (ix2 r 0) = BitVec.ofNat 32 g.val then 1 else 0 := by
  unfold k2_pay4
  show ((((IntOp.cmpi .eq (broadcastTo S5000x64 (shapeCast S5000x1 v16 shapeCasts_S5000x1_S5000x1) broadcasts_S5000x1_S5000x64 (ix2 r g))
      (iota .tc S5000x64 32 [1] iota_S5000x64_d1_w32 (ix2 r g))).setWidth 32).toInt : ℝ) : EReal) = _
  rw [iota_single_apply, shapeCast_self, broadcastTo_apply v16 broadcasts_S5000x1_S5000x64 (ix2 r g) (ix2 r 0)
    (fun a => by match a with | ⟨0, _⟩ => rfl | ⟨1, _⟩ => rfl)]
  show ((((BitVec.ofBool (v16 (ix2 r 0) == BitVec.ofNat 32 g.val)).setWidth 32).toInt : ℝ) : EReal) = _
  rw [bit_toInt_cast]
  simp only [beq_iff_eq]

theorem lhs_pool_0 (i : S64x128.Idx) (q : dot_S5000x64_S5000x128_S64x128_0_0_1_1_n_n.contr.Idx) :
    (dot_S5000x64_S5000x128_S64x128_0_0_1_1_n_n.lhsIdx i q 0).val = (q ⟨0, by decide⟩).val :=
  dot_S5000x64_S5000x128_S64x128_0_0_1_1_n_n.lhsIdx_val_of_single rfl i q
theorem lhs_pool_1 (i : S64x128.Idx) (q : dot_S5000x64_S5000x128_S64x128_0_0_1_1_n_n.contr.Idx) :
    (dot_S5000x64_S5000x128_S64x128_0_0_1_1_n_n.lhsIdx i q 1).val = (i 0).val := by
  unfold DotDims.lhsIdx
  rw [dif_neg (show ¬(1 : Fin S5000x64.rank) ∈ dot_S5000x64_S5000x128_S64x128_0_0_1_1_n_n.lhsBatch by decide), dif_pos (show (1 : Fin S5000x64.rank) ∈ dot_S5000x64_S5000x128_S64x128_0_0_1_1_n_n.lhsNonContracting by decide)]
  rfl
theorem rhs_pool_0 (i : S64x128.Idx) (q : dot_S5000x64_S5000x128_S64x128_0_0_1_1_n_n.contr.Idx) :
    (dot_S5000x64_S5000x128_S64x128_0_0_1_1_n_n.rhsIdx i q 0).val = (q ⟨0, by decide⟩).val :=
  dot_S5000x64_S5000x128_S64x128_0_0_1_1_n_n.rhsIdx_val_of_single rfl i q
theorem rhs_pool_1 (i : S64x128.Idx) (q : dot_S5000x64_S5000x128_S64x128_0_0_1_1_n_n.contr.Idx) :
    (dot_S5000x64_S5000x128_S64x128_0_0_1_1_n_n.rhsIdx i q 1).val = (i 1).val := by
  unfold DotDims.rhsIdx
  rw [dif_neg (show ¬(1 : Fin S5000x128.rank) ∈ dot_S5000x64_S5000x128_S64x128_0_0_1_1_n_n.rhsBatch by decide), dif_pos (show (1 : Fin S5000x128.rank) ∈ dot_S5000x64_S5000x128_S64x128_0_0_1_1_n_n.rhsNonContracting by decide)]
  rfl

theorem pool_matmul_apply (l : FVec Ideal S5000x64 .bf16) (r : FVec Ideal S5000x128 .bf16) (g : Fin 64) (k : Fin 128) :
    matmul dot_S5000x64_S5000x128_S64x128_0_0_1_1_n_n none l r (constant (F := Ideal) S64x128 .f32 0x00000000#32) (ix2 g k)
      = ∑ n : Fin 5000, l (ix2 n g) * r (ix2 n k) := by
  simp only [matmul]
  rw [Ideal.matmul_constant_zero_apply, ← Equiv.sum_comp (contrEquiv1 dot_S5000x64_S5000x128_S64x128_0_0_1_1_n_n 5000 rfl rfl).symm]
  refine Finset.sum_congr rfl fun n _ => ?_
  have hk := contrEquiv1_symm_val dot_S5000x64_S5000x128_S64x128_0_0_1_1_n_n 5000 rfl rfl n
  have el : dot_S5000x64_S5000x128_S64x128_0_0_1_1_n_n.lhsIdx (ix2 g k) ((contrEquiv1 dot_S5000x64_S5000x128_S64x128_0_0_1_1_n_n 5000 rfl rfl).symm n) = ix2 n g := funext fun a => Fin.ext (by
    match a with
    | ⟨0, _⟩ => exact (lhs_pool_0 _ _).trans hk
    | ⟨1, _⟩ => exact lhs_pool_1 _ _)
  have er : dot_S5000x64_S5000x128_S64x128_0_0_1_1_n_n.rhsIdx (ix2 g k) ((contrEquiv1 dot_S5000x64_S5000x128_S64x128_0_0_1_1_n_n 5000 rfl rfl).symm n) = ix2 n k := funext fun a => Fin.ext (by
    match a with
    | ⟨0, _⟩ => exact (rhs_pool_0 _ _).trans hk
    | ⟨1, _⟩ => exact rhs_pool_1 _ _)
  rw [el, er]

def actB (v3 : Vec Ideal S5000x1 .f32) (v5 : Vec Ideal S5000x128 .f32) (v9 : Vec Ideal S1x128 .f32) (n : Fin 5000) (k : Fin 128) : EReal :=
  max (v3 (ix2 n 0) * v5 (ix2 n k) + v9 (ix2 0 k)) 0

theorem pay5_apply (v3 : Vec Ideal S5000x1 .f32) (v5 : Vec Ideal S5000x128 .f32) (v9 : Vec Ideal S1x128 .f32)
    (v16 : Vec Ideal S5000x1 .i32) (v24 : Vec Ideal S64x128 .f32) (g : Fin 64) (k : Fin 128) :
    k2_pay5 (F := Ideal) v3 v5 v9 v16 v24 (ix2 g k)
      = v24 (ix2 g k) + ∑ n : Fin 5000, (if v16 (ix2 n 0) = BitVec.ofNat 32 g.val then (1 : EReal) else 0) * actB v3 v5 v9 n k := by
  unfold k2_pay5
  simp only [shapeCast_self]
  rw [addf_apply, pool_matmul_apply]
  congr 1
  refine Finset.sum_congr rfl fun n _ => ?_
  rw [truncf_apply, truncf_apply, pay4_apply, maximumf_apply, addf_apply, mulf_apply,
    broadcastTo_apply v3 broadcasts_S5000x1_S5000x128 (ix2 n k) (ix2 n 0) (fun a => by match a with | ⟨0, _⟩ => rfl | ⟨1, _⟩ => rfl),
    broadcastTo_apply v9 broadcasts_S1x128_S5000x128 (ix2 n k) (ix2 0 k) (fun a => by match a with | ⟨0, _⟩ => rfl | ⟨1, _⟩ => rfl),
    broadcast_apply]
  show _ * max _ (Ideal.ofBits .f32 0x00000000#32) = _
  rw [Ideal.ofBits_zero_f32]
  rfl

theorem pay2_apply (i : S64x128.Idx) : k2_pay2 (F := Ideal) i = 0 := by
  unfold k2_pay2
  simp only [shapeCast_self]
  exact Ideal.ofBits_zero_f32
theorem pay3_apply (i : S1x64.Idx) : k2_pay3 (F := Ideal) i = 0 := by
  unfold k2_pay3
  simp only [shapeCast_self]
  exact Ideal.ofBits_zero_f32

def nodeTerm (f : Fin 50000 → EReal) (m : ℕ) : EReal := if h : m < 50000 then f ⟨m, h⟩ else 0

theorem sum_nodeTerm (f : Fin 50000 → EReal) : ∑ m ∈ Finset.range 50000, nodeTerm f m = ∑ n : Fin 50000, f n := by
  rw [← Fin.sum_univ_eq_sum_range (nodeTerm f) 50000]
  exact Finset.sum_congr rfl fun n _ => dif_pos n.isLt

theorem acc_blocks {N : ℕ} (f : Fin 50000 → EReal) (A : (n : ℕ) → n < N → EReal) (blk : (n : ℕ) → n < N → Fin 5000 → EReal)
    (h0 : ∀ h, A 0 h = 0 + ∑ r, blk 0 h r)
    (hs : ∀ n (h : n + 1 < N), A (n + 1) h = A n (Nat.lt_of_succ_lt h) + ∑ r, blk (n + 1) h r)
    (hb : ∀ n h r, blk n h r = nodeTerm f (5000 * n + r.val)) :
    ∀ n (h : n < N), A n h = ∑ m ∈ Finset.range (5000 * (n + 1)), nodeTerm f m
  | 0, h => by
    rw [h0, zero_add]
    simp only [hb]
    rw [Fin.sum_univ_eq_sum_range (fun r => nodeTerm f (5000 * 0 + r)) 5000]
    simp
  | n + 1, h => by
    rw [hs, acc_blocks f A blk h0 hs hb n, show 5000 * (n + 1 + 1) = 5000 * (n + 1) + 5000 by ring, Finset.sum_range_add]
    congr 1
    simp only [hb]
    exact Fin.sum_univ_eq_sum_range (fun r => nodeTerm f (5000 * (n + 1) + r)) 5000

section Main

variable (V : (c : Dev nD) → (b : Ref sig .tc) → Buf (Elt Ideal) ((c : Thread nD τ).loc b))

abbrev xblk (c : Dev nD) (t : Fin cfg2.N) : Vec Ideal S5000x128 .f32 := iblk2 V c 0 t
abbrev sblk (c : Dev nD) (t : Fin cfg2.N) : Vec Ideal S5000x1 .f32 := iblk2 V c 1 t
abbrev bblk (c : Dev nD) (t : Fin cfg2.N) : Vec Ideal S1x128 .f32 := iblk2 V c 2 t
abbrev gblk (c : Dev nD) (t : Fin cfg2.N) : Vec Ideal S5000x1 .i32 := iblk2 V c 3 t

theorem idx_facts2 : ∀ t : Fin grid2.N,
    win2_0.index t 0 = t.val ∧ win2_0.index t 1 = 0 ∧ win2_1.index t 0 = t.val ∧ win2_1.index t 1 = 0
    ∧ win2_2.index t 0 = 0 ∧ win2_2.index t 1 = 0 ∧ win2_3.index t 0 = t.val ∧ win2_3.index t 1 = 0 := by decide +kernel

theorem xblk_apply (c : Dev nD) (a : Vec Ideal S50000x128 .f32) (ha : a = V c main_v38) (t : Fin cfg2.N) (r : Fin 5000) (k : Fin 128)
    (hr : 5000 * t.val + r.val < 50000) : xblk V c t (ix2 r k) = a (ix2 ⟨5000 * t.val + r.val, hr⟩ k) := by
  subst ha
  show ((cfg2.win 0).blk t).view.read (Elt Ideal) (V c (Pipeline.arrRef spec2 0)) (ix2 r k) = _
  rw [View.read_apply]
  show V c main_v38 (((cfg2.win 0).blk t).view.emb (ix2 r k)) = V c main_v38 _
  refine congrArg (V c main_v38) (funext fun x => Fin.ext ?_)
  match x with
  | ⟨0, _⟩ => show win2_0.index t 0 * 5000 + 1 * r.val = 5000 * t.val + r.val; rw [(idx_facts2 t).1]; omega
  | ⟨1, _⟩ => show win2_0.index t 1 * 128 + 1 * k.val = k.val; rw [(idx_facts2 t).2.1]; omega

theorem sblk_apply (c : Dev nD) (d : Vec Ideal S50000x1 .f32) (hd : d = V c main_v15) (t : Fin cfg2.N) (r : Fin 5000)
    (hr : 5000 * t.val + r.val < 50000) : sblk V c t (ix2 r 0) = d (ix2 ⟨5000 * t.val + r.val, hr⟩ 0) := by
  subst hd
  show ((cfg2.win 1).blk t).view.read (Elt Ideal) (V c (Pipeline.arrRef spec2 1)) (ix2 r 0) = _
  rw [View.read_apply]
  show V c main_v15 (((cfg2.win 1).blk t).view.emb (ix2 r 0)) = V c main_v15 _
  refine congrArg (V c main_v15) (funext fun x => Fin.ext ?_)
  match x with
  | ⟨0, _⟩ => show win2_1.index t 0 * 5000 + 1 * r.val = 5000 * t.val + r.val; rw [(idx_facts2 t).2.2.1]; omega
  | ⟨1, _⟩ => show win2_1.index t 1 * 1 + 1 * 0 = 0; rw [(idx_facts2 t).2.2.2.1]

theorem bblk_apply (c : Dev nD) (b : Vec Ideal S1x128 .f32) (hb : b = V c main_v40) (t : Fin cfg2.N) (k : Fin 128) :
    bblk V c t (ix2 0 k) = b (ix2 0 k) := by
  subst hb
  show ((cfg2.win 2).blk t).view.read (Elt Ideal) (V c (Pipeline.arrRef spec2 2)) (ix2 0 k) = _
  rw [View.read_apply]
  show V c main_v40 (((cfg2.win 2).blk t).view.emb (ix2 0 k)) = V c main_v40 _
  refine congrArg (V c main_v40) (funext fun x => Fin.ext ?_)
  match x with
  | ⟨0, _⟩ => show win2_2.index t 0 * 1 + 1 * 0 = 0; rw [(idx_facts2 t).2.2.2.2.1]
  | ⟨1, _⟩ => show win2_2.index t 1 * 128 + 1 * k.val = k.val; rw [(idx_facts2 t).2.2.2.2.2.1]; omega

theorem gblk_apply (c : Dev nD) (bt : IVec S50000x1 32) (hbt : bt = V c main_v39) (t : Fin cfg2.N) (r : Fin 5000)
    (hr : 5000 * t.val + r.val < 50000) : gblk V c t (ix2 r 0) = bt (ix2 ⟨5000 * t.val + r.val, hr⟩ 0) := by
  subst hbt
  show ((cfg2.win 3).blk t).view.read (Elt Ideal) (V c (Pipeline.arrRef spec2 3)) (ix2 r 0) = _
  rw [View.read_apply]
  show V c main_v39 (((cfg2.win 3).blk t).view.emb (ix2 r 0)) = V c main_v39 _
  refine congrArg (V c main_v39) (funext fun x => Fin.ext ?_)
  match x with
  | ⟨0, _⟩ => show win2_3.index t 0 * 5000 + 1 * r.val = 5000 * t.val + r.val; rw [(idx_facts2 t).2.2.2.2.2.2.1]; omega
  | ⟨1, _⟩ => show win2_3.index t 1 * 1 + 1 * 0 = 0; rw [(idx_facts2 t).2.2.2.2.2.2.2]

def poolF (a : Vec Ideal S50000x128 .f32) (d : Vec Ideal S50000x1 .f32) (b : Vec Ideal S1x128 .f32) (bt : IVec S50000x1 32)
    (g : Fin 64) (k : Fin 128) (n : Fin 50000) : EReal :=
  Cert.KSpec.hot (fun i => bt (ix2 (i 0) 0)) n g * max (d (ix2 n 0) * a (ix2 n k) + b (ix2 0 k)) 0

theorem blk_term (c : Dev nD) (a : Vec Ideal S50000x128 .f32) (d : Vec Ideal S50000x1 .f32) (b : Vec Ideal S1x128 .f32) (bt : IVec S50000x1 32)
    (ha : a = V c main_v38) (hd : d = V c main_v15) (hb : b = V c main_v40) (hbt : bt = V c main_v39)
    (t : Fin cfg2.N) (r : Fin 5000) (g : Fin 64) (k : Fin 128) :
    (if gblk V c t (ix2 r 0) = BitVec.ofNat 32 g.val then (1 : EReal) else 0) * actB (sblk V c t) (xblk V c t) (bblk V c t) r k
      = nodeTerm (poolF a d b bt g k) (5000 * t.val + r.val) := by
  have hN : cfg2.N = 10 := N_2
  have hr : 5000 * t.val + r.val < 50000 := by have := t.isLt; have := r.isLt; omega
  unfold nodeTerm
  rw [dif_pos hr]
  unfold actB poolF Cert.KSpec.hot
  rw [xblk_apply V c a ha t r k hr, sblk_apply V c d hd t r hr, bblk_apply V c b hb t k, gblk_apply V c bt hbt t r hr]

theorem scr0_eq (c : Dev nD) (a : Vec Ideal S50000x128 .f32) (d : Vec Ideal S50000x1 .f32) (b : Vec Ideal S1x128 .f32) (bt : IVec S50000x1 32)
    (ha : a = V c main_v38) (hd : d = V c main_v15) (hb : b = V c main_v40) (hbt : bt = V c main_v39) (g : Fin 64) (k : Fin 128) :
    ∀ n (h : n < cfg2.N), (outsAt2 V c n h).2.2.1 (ix2 g k) = ∑ m ∈ Finset.range (5000 * (n + 1)), nodeTerm (poolF a d b bt g k) m :=
  acc_blocks (poolF a d b bt g k) (fun n h => (outsAt2 V c n h).2.2.1 (ix2 g k))
    (fun n h r => (if gblk V c ⟨n, h⟩ (ix2 r 0) = BitVec.ofNat 32 g.val then (1 : EReal) else 0)
      * actB (sblk V c ⟨n, h⟩) (xblk V c ⟨n, h⟩) (bblk V c ⟨n, h⟩) r k)
    (fun h => by
      show (outsAt2 V c 0 h).2.2.1 (ix2 g k) = _
      rw [scr0_zero V c h]
      refine (pay5_apply (sblk V c ⟨0, h⟩) (xblk V c ⟨0, h⟩) (bblk V c ⟨0, h⟩) (gblk V c ⟨0, h⟩) (k2_pay2 (F := Ideal)) g k).trans ?_
      rw [pay2_apply])
    (fun n h => by
      show (outsAt2 V c (n + 1) h).2.2.1 (ix2 g k) = _
      rw [scr0_succ V c n h]
      exact pay5_apply (sblk V c ⟨n + 1, h⟩) (xblk V c ⟨n + 1, h⟩) (bblk V c ⟨n + 1, h⟩) (gblk V c ⟨n + 1, h⟩)
        (outsAt2 V c n (Nat.lt_of_succ_lt h)).2.2.1 g k)
    (fun n h r => blk_term V c a d b bt ha hd hb hbt ⟨n, h⟩ r g k)

end Main

section Final

variable (V : (c : Dev nD) → (b : Ref sig .tc) → Buf (Elt Ideal) ((c : Thread nD τ).loc b))

theorem lt9 : 9 < cfg2.N := by rw [show cfg2.N = 10 from N_2]; decide

abbrev pooled (c : Dev nD) : Buf (Elt Ideal) ((c : Thread nD τ).loc main_v41_0) := (outsAt2 V c 9 lt9).2.2.1

theorem flushed4_eq (c : Dev nD) (t : Fin cfg2.N) (hf : (cfg2.win 4).flush t = true) :
    (dat2 V c).flushed 4 t = ((cfg2.win 4).blk t).view.read (Elt Ideal) (pooled V c) := by
  have hN : cfg2.N = 10 := N_2
  have h9 : t.val = 9 := by have := (flush2_4 t).mp hf; have := t.isLt; omega
  obtain rfl : t = t2_9 := Fin.ext h9
  show (cfg2.win 4).cut (grid2.coords t2_9) ((dat2 V c).after 4 t2_9) = _
  rw [after2_4]
  show (cfg2.win 4).cut (grid2.coords t2_9) (outsAt2 V c 9 lt9).1 = _
  rw [out4_last V c lt9]
  have hz' : (fun a => win2_4.index t2_9 a * main_v41_0.ty.shape.size a) = fun _ => 0 := funext fun a => by fin_cases a <;> decide
  exact (Memref.read_access_unit_zero (Elt Ideal) main_v41_0 hz' (fun a => by rw [congrFun hz' a]; simp) (pooled V c)).symm

theorem arr4_eq (c : Dev nD) : (dat2 V c).arrAt 4 cfg2.N = pooled V c :=
  (dat2 V c).arrAt_eq_of_cover 4 (pooled V c) (flushed4_eq V c) fun i =>
    ⟨t2_9, (flush2_4 t2_9).mpr rfl, by
      show i ∈ ((View.whole main_v41_0).slice (win2_4.rect t2_9)).set
      rw [View.set_slice_whole, Rect.mem_set_unit]
      intro a
      have h0 : (i 0 : Nat) < 64 := (i 0).isLt
      have h1 : (i 1 : Nat) < 128 := (i 1).isLt
      match a with
      | ⟨0, _⟩ => show win2_4.index t2_9 0 * win2_4.size 0 ≤ (i 0 : Nat) ∧ (i 0 : Nat) < win2_4.index t2_9 0 * win2_4.size 0 + win2_4.xsize (grid2.coords t2_9) 0
                  rw [show win2_4.index t2_9 0 * win2_4.size 0 = 0 from by decide +kernel, show win2_4.xsize (grid2.coords t2_9) 0 = 64 from by decide +kernel]; omega
      | ⟨1, _⟩ => show win2_4.index t2_9 1 * win2_4.size 1 ≤ (i 1 : Nat) ∧ (i 1 : Nat) < win2_4.index t2_9 1 * win2_4.size 1 + win2_4.xsize (grid2.coords t2_9) 1
                  rw [show win2_4.index t2_9 1 * win2_4.size 1 = 0 from by decide +kernel, show win2_4.xsize (grid2.coords t2_9) 1 = 128 from by decide +kernel]; omega⟩

end Final

end F2

section Result

open F2

variable (V : (c : Dev nD) → (b : Ref sig .tc) → Buf (Elt Ideal) ((c : Thread nD τ).loc b))

theorem final2_0 (c : Dev nD) (a : Vec Ideal S50000x128 .f32) (d : Vec Ideal S50000x1 .f32) (b : Vec Ideal S1x128 .f32) (bt : IVec S50000x1 32)
    (ha : a = V c main_v38) (hd : d = V c main_v15) (hb : b = V c main_v40) (hbt : bt = V c main_v39) (g : Fin 64) (k : Fin 128) :
    (dat2 V c).arrAt 4 cfg2.N (ix2 g k)
      = ∑ n : Fin 50000, Cert.KSpec.hot (fun i => bt (ix2 (i 0) 0)) n g * max (d (ix2 n 0) * a (ix2 n k) + b (ix2 0 k)) 0 := by
  rw [arr4_eq V c]
  show (outsAt2 V c 9 lt9).2.2.1 (ix2 g k) = _
  rw [scr0_eq V c a d b bt ha hd hb hbt g k 9 lt9]
  exact sum_nodeTerm (poolF a d b bt g k)

end Result

end Cert.KernelIdeal.Hand

end
-- ==== Proof.Val.F2c.lean ====
import proofs.«407291_j19164144075375_2_alg».proof.Proof.Val.F2
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

theorem colSum_apply (src : FVec Ideal S5000x64 .f32) (g : Fin 64) :
    multiReduction .add [0] S64 src 0x00000000#32 reduces_S5000x64_S64 (.inl rfl) rfl (ix1 g) = ∑ r : Fin 5000, src (ix2 r g) := by
  refine (Ideal.multiReduction_add_single src 0x00000000#32 reduces_S5000x64_S64 (.inl rfl) rfl (ix1 g)).trans ?_
  refine Finset.sum_congr rfl fun r _ => congrArg src ?_
  funext a
  match a with
  | ⟨0, _⟩ => rfl
  | ⟨1, _⟩ => rfl

theorem count_step_apply (v16 : Vec Ideal S5000x1 .i32) (v30 : Vec Ideal S1x64 .f32) (g : Fin 64) :
    k2_pay1 (k2_pay6 (F := Ideal) v16 v30) (ix2 (0 : Fin 1) g)
      = v30 (ix2 (0 : Fin 1) g) + ∑ r : Fin 5000, (if v16 (ix2 r (0 : Fin 1)) = BitVec.ofNat 32 g.val then (1 : EReal) else 0) := by
  unfold k2_pay1 k2_pay6
  rw [shapeCast_self, addf_apply]
  refine congrArg (v30 (ix2 (0 : Fin 1) g) + ·) ?_
  refine (shapeCast_apply _ shapeCasts_S64_S1x64 (ix2 (0 : Fin 1) g) (ix1 g) (by
    rewrite [Shape.rowMajor_val_two, Shape.rowMajor_val_one]; show g.val = 0 * 64 + g.val; omega)).trans ?_
  rw [colSum_apply]
  exact Finset.sum_congr rfl fun r _ => F2.pay4_apply v16 r g

def hotN (bt : IVec S50000x1 32) (g : Fin 64) (n : ℕ) : EReal :=
  if h : n < 50000 then (if bt (ix2 (⟨n, h⟩ : Fin 50000) (0 : Fin 1)) = BitVec.ofNat 32 g.val then 1 else 0) else 0

theorem block_count (bt : IVec S50000x1 32) (v16 : Vec Ideal S5000x1 .i32) (T : ℕ) (hT : T < 10)
    (hblk : ∀ (r : Fin 5000) (n : Fin 50000), n.val = 5000 * T + r.val → v16 (ix2 r (0 : Fin 1)) = bt (ix2 n (0 : Fin 1))) (g : Fin 64) :
    ∑ r : Fin 5000, (if v16 (ix2 r (0 : Fin 1)) = BitVec.ofNat 32 g.val then (1 : EReal) else 0)
      = ∑ x ∈ Finset.range 5000, hotN bt g (5000 * T + x) := by
  rw [← Fin.sum_univ_eq_sum_range (fun x => hotN bt g (5000 * T + x)) 5000]
  refine Finset.sum_congr rfl fun r _ => ?_
  have hlt : 5000 * T + r.val < 50000 := by have := r.isLt; omega
  unfold hotN
  rw [dif_pos hlt, hblk r ⟨5000 * T + r.val, hlt⟩ rfl]

theorem count_all (bt : IVec S50000x1 32) (g : Fin 64) :
    ∑ n ∈ Finset.range 50000, hotN bt g n = ∑ n : Fin 50000, Cert.KSpec.hot (fun i => bt (ix2 (i 0) (0 : Fin 1))) n g := by
  rw [← Fin.sum_univ_eq_sum_range (fun n => hotN bt g n) 50000]
  refine Finset.sum_congr rfl fun n _ => ?_
  unfold hotN Cert.KSpec.hot
  rw [dif_pos n.isLt]

theorem count_succ (bt : IVec S50000x1 32) (g : Fin 64) (T : ℕ) :
    ∑ x ∈ Finset.range (5000 * (T + 1)), hotN bt g x + ∑ x ∈ Finset.range 5000, hotN bt g (5000 * (T + 1) + x)
      = ∑ x ∈ Finset.range (5000 * (T + 1 + 1)), hotN bt g x := by
  rw [show 5000 * (T + 1 + 1) = 5000 * (T + 1) + 5000 by ring, Finset.sum_range_add]

variable (V : (c : Dev nD) → (b : Ref sig .tc) → Buf (Elt Ideal) ((c : Thread nD τ).loc b))

theorem idx_facts2c : ∀ t : Fin cfg2.N,
    win2_3.index t (0 : Fin 2) = t.val ∧ win2_3.index t (1 : Fin 2) = 0
    ∧ win2_5.index t (0 : Fin 2) = 0 ∧ win2_5.index t (1 : Fin 2) = 0 ∧ t.val < 10 :=
  (by decide +kernel : ∀ t : Fin grid2.N, _)

theorem iblk2_3_apply (c : Dev nD) (t : Fin cfg2.N) (x : S5000x1.Idx) (k : S50000x1.Idx)
    (hk0 : (k 0).val = 5000 * t.val + (x 0).val) (hk1 : (k 1).val = (x 1).val) :
    (iblk2 V c 3 t : Vec Ideal S5000x1 .i32) x = (V c main_v39 : S50000x1.Idx → BitVec 32) k := by
  obtain ⟨e0, e1, -⟩ := idx_facts2c t
  unfold iblk2
  rw [View.read_apply]
  show V c main_v39 _ = V c main_v39 _
  congr 1
  funext a
  apply Fin.ext
  match a with
  | ⟨0, _⟩ => show win2_3.index t 0 * 5000 + 1 * (x 0).val = (k 0).val; rw [e0, hk0]; omega
  | ⟨1, _⟩ => show win2_3.index t 1 * 1 + 1 * (x 1).val = (k 1).val; rw [e1, hk1]; omega

theorem scr1_eq (c : Dev nD) (g : Fin 64) :
    ∀ (n : ℕ) (hn : n < cfg2.N), (outsAt2 V c n hn).2.2.2 (ix2 (0 : Fin 1) g)
      = ∑ x ∈ Finset.range (5000 * (n + 1)), hotN (V c main_v39) g x := by
  have hN : cfg2.N = 10 := N_2
  intro n
  induction n with
  | zero =>
    intro hn
    rw [scr1_zero V c hn]
    refine (count_step_apply (iblk2 V c 3 ⟨0, hn⟩) (k2_pay3 (F := Ideal)) g).trans ?_
    rw [F2.pay3_apply, zero_add]
    refine (block_count (V c main_v39) (iblk2 V c 3 ⟨0, hn⟩) 0 (by omega)
      (fun r k hk => iblk2_3_apply V c ⟨0, hn⟩ (ix2 r (0 : Fin 1)) (ix2 k (0 : Fin 1)) hk rfl) g).trans ?_
    exact Finset.sum_congr rfl fun x _ => by rw [Nat.mul_zero, Nat.zero_add]
  | succ n ih =>
    intro hn
    rw [scr1_succ V c n hn]
    refine (count_step_apply (iblk2 V c 3 ⟨n + 1, hn⟩) (outsAt2 V c n (Nat.lt_of_succ_lt hn)).2.2.2 g).trans ?_
    rw [ih (Nat.lt_of_succ_lt hn)]
    refine Eq.trans (congrArg (∑ x ∈ Finset.range (5000 * (n + 1)), hotN (V c main_v39) g x + ·)
      (block_count (V c main_v39) (iblk2 V c 3 ⟨n + 1, hn⟩) (n + 1) (by omega)
        (fun r k hk => iblk2_3_apply V c ⟨n + 1, hn⟩ (ix2 r (0 : Fin 1)) (ix2 k (0 : Fin 1)) hk rfl) g)) ?_
    exact count_succ (V c main_v39) g n

def countArr (c : Dev nD) : Vec Ideal S1x64 .f32 := (outsAt2 V c 9 t2_9.isLt).2.2.2

theorem flushed2_5_eq (c : Dev nD) (t : Fin cfg2.N) (hf : (cfg2.win 5).flush t = true) :
    (dat2 V c).flushed 5 t = ((cfg2.win 5).blk t).view.read (Elt Ideal) (countArr V c) := by
  have hN : cfg2.N = 10 := N_2
  have h9 : t.val = 9 := by have := (flush2_5 t).mp hf; have := t.isLt; omega
  obtain rfl : t = t2_9 := Fin.ext h9
  obtain ⟨-, -, e0, e1, -⟩ := idx_facts2c t2_9
  show (cfg2.win 5).cut (grid2.coords t2_9) ((dat2 V c).after 5 t2_9) = _
  rw [after2_5]
  have e : (outsAt2 V c t2_9.val t2_9.isLt).2.1 = countArr V c := out5_last V c t2_9.isLt
  rw [e]
  have hz' : (fun a => win2_5.index t2_9 a * main_v41_1.ty.shape.size a) = fun _ => 0 := funext fun a => by
    match a with
    | ⟨0, _⟩ => show win2_5.index t2_9 0 * 1 = 0; rw [e0]
    | ⟨1, _⟩ => show win2_5.index t2_9 1 * 64 = 0; rw [e1]
  exact (Memref.read_access_unit_zero (Elt Ideal) main_v41_1 hz' (fun a => by rw [congrFun hz' a]; simp) (countArr V c)).symm

theorem covered2_5 (i : S1x64.Idx) :
    ∃ t : Fin cfg2.N, (cfg2.win 5).flush t = true ∧ i ∈ ((cfg2.win 5).blk t).view.set := by
  obtain ⟨-, -, e0, e1, -⟩ := idx_facts2c t2_9
  refine ⟨t2_9, (flush2_5 t2_9).mpr rfl, ?_⟩
  show i ∈ ((View.whole main_v41_1).slice (win2_5.rect t2_9)).set
  rw [View.set_slice_whole, Rect.mem_set_unit]
  intro a
  have h0 : (i 0).val < 1 := (i 0).isLt
  have h1 : (i 1).val < 64 := (i 1).isLt
  match a with
  | ⟨0, _⟩ => show win2_5.index t2_9 0 * 1 ≤ (i 0).val ∧ (i 0).val < win2_5.index t2_9 0 * 1 + 1; rw [e0]; omega
  | ⟨1, _⟩ => show win2_5.index t2_9 1 * 64 ≤ (i 1).val ∧ (i 1).val < win2_5.index t2_9 1 * 64 + 64; rw [e1]; omega

theorem arr2_5 (c : Dev nD) : (dat2 V c).arrAt 5 cfg2.N = countArr V c :=
  (dat2 V c).arrAt_eq_of_cover 5 (countArr V c) (flushed2_5_eq V c) covered2_5

theorem final2_1 (c : Dev nD) (bt : IVec S50000x1 32) (hbt : bt = V c main_v39) (g : Fin 64) :
    (dat2 V c).arrAt 5 cfg2.N (ix2 (0 : Fin 1) g) = ∑ n : Fin 50000, Cert.KSpec.hot (fun i => bt (ix2 (i 0) (0 : Fin 1))) n g := by
  subst hbt
  rw [arr2_5]
  show (outsAt2 V c 9 t2_9.isLt).2.2.2 (ix2 (0 : Fin 1) g) = _
  rw [scr1_eq V c g 9 t2_9.isLt]
  exact count_all (V c main_v39) g

end Cert.KernelIdeal.Hand

end
-- ==== Proof.Val.F3.lean ====
import proofs.«407291_j19164144075375_2_alg».proof.Proof.KI.R3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

def head3 (x0 : S64x192.Idx → EReal) (x1 : S192x256.Idx → EReal) (x2 : S1x256.Idx → EReal) (x3 : S256x8.Idx → EReal)
    (x4 : S1x8.Idx → EReal) (g : Fin 64) (a : Fin 8) : EReal :=
  Ideal.tanh ((∑ j : Fin 256, max ((∑ i : Fin 192, x0 (ix2 g i) * x1 (ix2 i j)) + x2 (ix2 0 j)) 0 * x3 (ix2 j a)) + x4 (ix2 0 a))

theorem head3_def (x0 : S64x192.Idx → EReal) (x1 : S192x256.Idx → EReal) (x2 : S1x256.Idx → EReal) (x3 : S256x8.Idx → EReal)
    (x4 : S1x8.Idx → EReal) (g : Fin 64) (a : Fin 8) :
    head3 x0 x1 x2 x3 x4 g a
      = Ideal.tanh ((∑ j : Fin 256, max ((∑ i : Fin 192, x0 (ix2 g i) * x1 (ix2 i j)) + x2 (ix2 0 j)) 0 * x3 (ix2 j a)) + x4 (ix2 0 a)) := rfl

theorem lhs_mm1_0 (i : S64x256.Idx) (q : dot_S64x192_S192x256_S64x256_1_0_0_1_n_n.contr.Idx) :
    (dot_S64x192_S192x256_S64x256_1_0_0_1_n_n.lhsIdx i q 0).val = (i 0).val := by
  unfold DotDims.lhsIdx
  rw [dif_neg (show ¬(0 : Fin S64x192.rank) ∈ dot_S64x192_S192x256_S64x256_1_0_0_1_n_n.lhsBatch by decide), dif_pos (show (0 : Fin S64x192.rank) ∈ dot_S64x192_S192x256_S64x256_1_0_0_1_n_n.lhsNonContracting by decide)]
  rfl
theorem lhs_mm1_1 (i : S64x256.Idx) (q : dot_S64x192_S192x256_S64x256_1_0_0_1_n_n.contr.Idx) :
    (dot_S64x192_S192x256_S64x256_1_0_0_1_n_n.lhsIdx i q 1).val = (q ⟨0, by decide⟩).val :=
  dot_S64x192_S192x256_S64x256_1_0_0_1_n_n.lhsIdx_val_of_single rfl i q
theorem rhs_mm1_0 (i : S64x256.Idx) (q : dot_S64x192_S192x256_S64x256_1_0_0_1_n_n.contr.Idx) :
    (dot_S64x192_S192x256_S64x256_1_0_0_1_n_n.rhsIdx i q 0).val = (q ⟨0, by decide⟩).val :=
  dot_S64x192_S192x256_S64x256_1_0_0_1_n_n.rhsIdx_val_of_single rfl i q
theorem rhs_mm1_1 (i : S64x256.Idx) (q : dot_S64x192_S192x256_S64x256_1_0_0_1_n_n.contr.Idx) :
    (dot_S64x192_S192x256_S64x256_1_0_0_1_n_n.rhsIdx i q 1).val = (i 1).val := by
  unfold DotDims.rhsIdx
  rw [dif_neg (show ¬(1 : Fin S192x256.rank) ∈ dot_S64x192_S192x256_S64x256_1_0_0_1_n_n.rhsBatch by decide), dif_pos (show (1 : Fin S192x256.rank) ∈ dot_S64x192_S192x256_S64x256_1_0_0_1_n_n.rhsNonContracting by decide)]
  rfl

theorem mm1_apply {φ₁ φ₂ : FTy} (L : FVec Ideal S64x192 φ₁) (R : FVec Ideal S192x256 φ₂) (g : Fin 64) (j : Fin 256) :
    matmul dot_S64x192_S192x256_S64x256_1_0_0_1_n_n none L R (constant S64x256 .f32 0x00000000#32) (ix2 g j)
      = ∑ i : Fin 192, L (ix2 g i) * R (ix2 i j) := by
  simp only [matmul]
  rw [Ideal.matmul_constant_zero_apply, ← Equiv.sum_comp (contrEquiv1 dot_S64x192_S192x256_S64x256_1_0_0_1_n_n 192 rfl rfl).symm]
  refine Finset.sum_congr rfl fun k _ => ?_
  have hk := contrEquiv1_symm_val dot_S64x192_S192x256_S64x256_1_0_0_1_n_n 192 rfl rfl k
  have el : dot_S64x192_S192x256_S64x256_1_0_0_1_n_n.lhsIdx (ix2 g j) ((contrEquiv1 dot_S64x192_S192x256_S64x256_1_0_0_1_n_n 192 rfl rfl).symm k) = ix2 g k := funext fun a => Fin.ext (by
    match a with
    | ⟨0, _⟩ => exact lhs_mm1_0 _ _
    | ⟨1, _⟩ => exact (lhs_mm1_1 _ _).trans hk)
  have er : dot_S64x192_S192x256_S64x256_1_0_0_1_n_n.rhsIdx (ix2 g j) ((contrEquiv1 dot_S64x192_S192x256_S64x256_1_0_0_1_n_n 192 rfl rfl).symm k) = ix2 k j := funext fun a => Fin.ext (by
    match a with
    | ⟨0, _⟩ => exact (rhs_mm1_0 _ _).trans hk
    | ⟨1, _⟩ => exact rhs_mm1_1 _ _)
  rw [el, er]

theorem lhs_mm2_0 (i : S64x8.Idx) (q : dot_S64x256_S256x8_S64x8_1_0_0_1_n_n.contr.Idx) :
    (dot_S64x256_S256x8_S64x8_1_0_0_1_n_n.lhsIdx i q 0).val = (i 0).val := by
  unfold DotDims.lhsIdx
  rw [dif_neg (show ¬(0 : Fin S64x256.rank) ∈ dot_S64x256_S256x8_S64x8_1_0_0_1_n_n.lhsBatch by decide), dif_pos (show (0 : Fin S64x256.rank) ∈ dot_S64x256_S256x8_S64x8_1_0_0_1_n_n.lhsNonContracting by decide)]
  rfl
theorem lhs_mm2_1 (i : S64x8.Idx) (q : dot_S64x256_S256x8_S64x8_1_0_0_1_n_n.contr.Idx) :
    (dot_S64x256_S256x8_S64x8_1_0_0_1_n_n.lhsIdx i q 1).val = (q ⟨0, by decide⟩).val :=
  dot_S64x256_S256x8_S64x8_1_0_0_1_n_n.lhsIdx_val_of_single rfl i q
theorem rhs_mm2_0 (i : S64x8.Idx) (q : dot_S64x256_S256x8_S64x8_1_0_0_1_n_n.contr.Idx) :
    (dot_S64x256_S256x8_S64x8_1_0_0_1_n_n.rhsIdx i q 0).val = (q ⟨0, by decide⟩).val :=
  dot_S64x256_S256x8_S64x8_1_0_0_1_n_n.rhsIdx_val_of_single rfl i q
theorem rhs_mm2_1 (i : S64x8.Idx) (q : dot_S64x256_S256x8_S64x8_1_0_0_1_n_n.contr.Idx) :
    (dot_S64x256_S256x8_S64x8_1_0_0_1_n_n.rhsIdx i q 1).val = (i 1).val := by
  unfold DotDims.rhsIdx
  rw [dif_neg (show ¬(1 : Fin S256x8.rank) ∈ dot_S64x256_S256x8_S64x8_1_0_0_1_n_n.rhsBatch by decide), dif_pos (show (1 : Fin S256x8.rank) ∈ dot_S64x256_S256x8_S64x8_1_0_0_1_n_n.rhsNonContracting by decide)]
  rfl

theorem mm2_apply {φ₁ φ₂ : FTy} (L : FVec Ideal S64x256 φ₁) (R : FVec Ideal S256x8 φ₂) (g : Fin 64) (a : Fin 8) :
    matmul dot_S64x256_S256x8_S64x8_1_0_0_1_n_n none L R (constant S64x8 .f32 0x00000000#32) (ix2 g a)
      = ∑ j : Fin 256, L (ix2 g j) * R (ix2 j a) := by
  simp only [matmul]
  rw [Ideal.matmul_constant_zero_apply, ← Equiv.sum_comp (contrEquiv1 dot_S64x256_S256x8_S64x8_1_0_0_1_n_n 256 rfl rfl).symm]
  refine Finset.sum_congr rfl fun k _ => ?_
  have hk := contrEquiv1_symm_val dot_S64x256_S256x8_S64x8_1_0_0_1_n_n 256 rfl rfl k
  have el : dot_S64x256_S256x8_S64x8_1_0_0_1_n_n.lhsIdx (ix2 g a) ((contrEquiv1 dot_S64x256_S256x8_S64x8_1_0_0_1_n_n 256 rfl rfl).symm k) = ix2 g k := funext fun b => Fin.ext (by
    match b with
    | ⟨0, _⟩ => exact lhs_mm2_0 _ _
    | ⟨1, _⟩ => exact (lhs_mm2_1 _ _).trans hk)
  have er : dot_S64x256_S256x8_S64x8_1_0_0_1_n_n.rhsIdx (ix2 g a) ((contrEquiv1 dot_S64x256_S256x8_S64x8_1_0_0_1_n_n 256 rfl rfl).symm k) = ix2 k a := funext fun b => Fin.ext (by
    match b with
    | ⟨0, _⟩ => exact (rhs_mm2_0 _ _).trans hk
    | ⟨1, _⟩ => exact rhs_mm2_1 _ _)
  rw [el, er]

theorem pay3_apply (x0 : Vec Ideal S64x192 .f32) (x1 : Vec Ideal S192x256 .f32) (x2 : Vec Ideal S1x256 .f32)
    (x3 : Vec Ideal S256x8 .f32) (x4 : Vec Ideal S1x8 .f32) (g : Fin 64) (a : Fin 8) :
    k3_pay1 x0 x1 x2 x3 x4 (ix2 g a) = head3 x0 x1 x2 x3 x4 g a := by
  unfold k3_pay1 head3
  simp only [shapeCast_self]
  show Ideal.tanh (_ + _) = _
  rw [mm2_apply, broadcastTo_1b_ab_apply]
  congr 2
  refine Finset.sum_congr rfl fun j _ => ?_
  rw [truncf_apply, truncf_apply, maximumf_apply, addf_apply, mm1_apply, broadcastTo_1b_ab_apply, broadcast_apply]
  simp only [truncf_apply]
  show max _ (Ideal.ofBits .f32 0x00000000#32) * _ = _
  rw [Ideal.ofBits_zero_f32]

section Array
variable (V : (c : Dev nD) → (b : Ref sig .tc) → Buf (Elt Ideal) ((c : Thread nD τ).loc b))

theorem idx_facts3 : ∀ t : Fin cfg3.N,
    win3_0.index t (0 : Fin 2) = 0 ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

theorem iblk3_0_eq (c : Dev nD) (t : Fin cfg3.N) : (iblk3 V c 0 t : Vec Ideal S64x192 .f32) = (V c main_v47 : S64x192.Idx → EReal) := by
  obtain ⟨e0, e1, -⟩ := idx_facts3 t
  funext j
  show V c main_v47 (((cfg3.win 0).blk t).view.emb j) = V c main_v47 j
  congr 1
  funext a; apply Fin.ext
  match a with
  | ⟨0, _⟩ => show win3_0.index t (0 : Fin 2) * 64 + 1 * (j 0).val = (j 0).val; omega
  | ⟨1, _⟩ => show win3_0.index t (1 : Fin 2) * 192 + 1 * (j 1).val = (j 1).val; omega

theorem iblk3_1_eq (c : Dev nD) (t : Fin cfg3.N) : (iblk3 V c 1 t : Vec Ideal S192x256 .f32) = (V c main_arg8 : S192x256.Idx → EReal) := by
  obtain ⟨-, -, e0, e1, -⟩ := idx_facts3 t
  funext j
  show V c main_arg8 (((cfg3.win 1).blk t).view.emb j) = V c main_arg8 j
  congr 1
  funext a; apply Fin.ext
  match a with
  | ⟨0, _⟩ => show win3_1.index t (0 : Fin 2) * 192 + 1 * (j 0).val = (j 0).val; omega
  | ⟨1, _⟩ => show win3_1.index t (1 : Fin 2) * 256 + 1 * (j 1).val = (j 1).val; omega

theorem iblk3_2_eq (c : Dev nD) (t : Fin cfg3.N) : (iblk3 V c 2 t : Vec Ideal S1x256 .f32) = (V c main_v48 : S1x256.Idx → EReal) := by
  obtain ⟨-, -, -, -, e0, e1, -⟩ := idx_facts3 t
  funext j
  show V c main_v48 (((cfg3.win 2).blk t).view.emb j) = V c main_v48 j
  congr 1
  funext a; apply Fin.ext
  match a with
  | ⟨0, _⟩ => show win3_2.index t (0 : Fin 2) * 1 + 1 * (j 0).val = (j 0).val; omega
  | ⟨1, _⟩ => show win3_2.index t (1 : Fin 2) * 256 + 1 * (j 1).val = (j 1).val; omega

theorem iblk3_3_eq (c : Dev nD) (t : Fin cfg3.N) : (iblk3 V c 3 t : Vec Ideal S256x8 .f32) = (V c main_arg10 : S256x8.Idx → EReal) := by
  obtain ⟨-, -, -, -, -, -, e0, e1, -⟩ := idx_facts3 t
  funext j
  show V c main_arg10 (((cfg3.win 3).blk t).view.emb j) = V c main_arg10 j
  congr 1
  funext a; apply Fin.ext
  match a with
  | ⟨0, _⟩ => show win3_3.index t (0 : Fin 2) * 256 + 1 * (j 0).val = (j 0).val; omega
  | ⟨1, _⟩ => show win3_3.index t (1 : Fin 2) * 8 + 1 * (j 1).val = (j 1).val; omega

theorem iblk3_4_eq (c : Dev nD) (t : Fin cfg3.N) : (iblk3 V c 4 t : Vec Ideal S1x8 .f32) = (V c main_v49 : S1x8.Idx → EReal) := by
  obtain ⟨-, -, -, -, -, -, -, -, e0, e1, -⟩ := idx_facts3 t
  funext j
  show V c main_v49 (((cfg3.win 4).blk t).view.emb j) = V c main_v49 j
  congr 1
  funext a; apply Fin.ext
  match a with
  | ⟨0, _⟩ => show win3_4.index t (0 : Fin 2) * 1 + 1 * (j 0).val = (j 0).val; omega
  | ⟨1, _⟩ => show win3_4.index t (1 : Fin 2) * 8 + 1 * (j 1).val = (j 1).val; omega

abbrev G3 (c : Dev nD) : S64x8.Idx → EReal :=
  k3_pay1 (F := Ideal) (V c main_v47 : S64x192.Idx → EReal) (V c main_arg8 : S192x256.Idx → EReal) (V c main_v48 : S1x256.Idx → EReal)
    (V c main_arg10 : S256x8.Idx → EReal) (V c main_v49 : S1x8.Idx → EReal)

theorem flushed3_5_eq (c : Dev nD) (t : Fin cfg3.N) :
    (dat3 V c).flushed 5 t = ((cfg3.win 5).blk t).view.read (Elt Ideal) (G3 V c) := by
  show (cfg3.win 5).cut (grid3.coords t) ((dat3 V c).after 5 t) = _
  rw [after3_5, out3_5_eq, iblk3_0_eq, iblk3_1_eq, iblk3_2_eq, iblk3_3_eq, iblk3_4_eq]
  obtain ⟨-, -, -, -, -, -, -, -, -, -, e0, e1⟩ := idx_facts3 t
  funext j
  show G3 V c j = G3 V c (((cfg3.win 5).blk t).view.emb j)
  congr 1
  funext a; apply Fin.ext
  match a with
  | ⟨0, _⟩ => show (j 0).val = win3_5.index t (0 : Fin 2) * 64 + 1 * (j 0).val; omega
  | ⟨1, _⟩ => show (j 1).val = win3_5.index t (1 : Fin 2) * 8 + 1 * (j 1).val; omega

theorem mem_blk3_5 (t : Fin cfg3.N) (i : S64x8.Idx) :
    i ∈ ((cfg3.win 5).blk t).view.set ↔ ∀ a : Fin 2, win3_5.index t a * S64x8.size a ≤ (i a).val ∧ (i a).val < win3_5.index t a * S64x8.size a + S64x8.size a := by
  show i ∈ ((View.whole main_v50).slice (win3_5.rect t)).set ↔ _
  rw [View.set_slice_whole, Rect.mem_set_unit]
  exact Iff.rfl

theorem arr3_5 (c : Dev nD) : (dat3 V c).arrAt 5 cfg3.N = G3 V c :=
  (dat3 V c).arrAt_eq_of_cover 5 (G3 V c) (fun t _ => flushed3_5_eq V c t) fun i => by
    refine ⟨t3_0, flush3_5 t3_0, ?_⟩
    rw [mem_blk3_5]
    obtain ⟨-, -, -, -, -, -, -, -, -, -, e0, e1⟩ := idx_facts3 t3_0
    intro a
    have h0 : (i 0).val < 64 := (i 0).isLt
    have h1 : (i 1).val < 8 := (i 1).isLt
    match a with
    | ⟨0, _⟩ => show win3_5.index t3_0 (0 : Fin 2) * 64 ≤ (i 0).val ∧ (i 0).val < win3_5.index t3_0 (0 : Fin 2) * 64 + 64; omega
    | ⟨1, _⟩ => show win3_5.index t3_0 (1 : Fin 2) * 8 ≤ (i 1).val ∧ (i 1).val < win3_5.index t3_0 (1 : Fin 2) * 8 + 8; omega

theorem final3 (c : Dev nD) (g : Fin 64) (a : Fin 8) :
    (dat3 V c).arrAt 5 cfg3.N (ix2 g a)
      = head3 (V c main_v47) (V c main_arg8) (V c main_v48) (V c main_arg10) (V c main_v49) g a :=
  (congrFun (arr3_5 V c) (ix2 g a)).trans (pay3_apply _ _ _ _ _ g a)

end Array

end Cert.KernelIdeal.Hand

end
-- ==== Proof.Val.ChainBTop.lean ====
import proofs.«407291_j19164144075375_2_alg».proof.Proof.KI.R3
import proofs.«407291_j19164144075375_2_alg».proof.Proof.Gen.KernelIdeal.Regions
import proofs.«407291_j19164144075375_2_alg».proof.Proof.Gen.KernelIdeal.Launch
import proofs.«407291_j19164144075375_2_alg».proof.Proof.Alg.KSpec
import proofs.«407291_j19164144075375_2_alg».proof.Proof.Val.F3
import Idealize.ShloMosaic.Lib.StableHlo.Run
import Idealize.ShloMosaic.Lib.Pipeline.Value
import Idealize.ShloMosaic.Lib.ValueIdx
import Idealize.ShloMosaic.Lib.IdealHost

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

section Host
variable (U : Valuation τ sig (Elt Ideal))

theorem host4_v52 (y : S64x8.Idx → EReal) (hy : ∀ j, (U (Proc.devRef .tc main_v50) : S64x8.Idx → EReal) j = y j)
    (g : Fin 64) (a : Fin 8) :
    (StableHlo.after hostOps4 U (Proc.devRef .tc main_v52) : S64x8.Idx → EReal) (ix2 g a) = y (ix2 g a) * Cert.KSpec.one := by
  show (StableHlo.after hostOps4 U (Proc.devRef .tc main_v52) : S64x8.Idx → EReal) (ix2 g a) = _
  after_results
  rw [mulf_apply, broadcastInDim_scalar_apply, constant_apply, hy]

theorem host3_v48 (b : S256.Idx → EReal) (hb : ∀ j, (U (Proc.devRef .tc main_arg9) : S256.Idx → EReal) j = b j) (j : Fin 256) :
    (StableHlo.after hostOps3 U (Proc.devRef .tc main_v48) : S1x256.Idx → EReal) (ix2 0 j) = b (ix1 j) := by
  show (StableHlo.after hostOps3 U (Proc.devRef .tc main_v48) : S1x256.Idx → EReal) (ix2 0 j) = _
  after_results
  refine (shapeCast_apply _ _ (ix2 0 j) (ix1 j) ?_).trans (hb _)
  rw [Shape.rowMajor_val_one, Shape.rowMajor_val_two]
  show j.val = 0 * 256 + j.val
  omega

theorem host3_v49 (b : S8.Idx → EReal) (hb : ∀ j, (U (Proc.devRef .tc main_arg11) : S8.Idx → EReal) j = b j) (a : Fin 8) :
    (StableHlo.after hostOps3 U (Proc.devRef .tc main_v49) : S1x8.Idx → EReal) (ix2 0 a) = b (ix1 a) := by
  show (StableHlo.after hostOps3 U (Proc.devRef .tc main_v49) : S1x8.Idx → EReal) (ix2 0 a) = _
  after_results
  refine (shapeCast_apply _ _ (ix2 0 a) (ix1 a) ?_).trans (hb _)
  rw [Shape.rowMajor_val_one, Shape.rowMajor_val_two]
  show a.val = 0 * 8 + a.val
  omega

theorem host3_v47 (p : Fin 64 → Fin 128 → EReal) (cn : Fin 64 → EReal) (sv : S64x64.Idx → EReal)
    (hp : ∀ g k, (U (Proc.devRef .tc main_v41_0) : S64x128.Idx → EReal) (ix2 g k) = p g k)
    (hc : ∀ g, (U (Proc.devRef .tc main_v41_1) : S1x64.Idx → EReal) (ix2 0 g) = cn g)
    (hs : ∀ j, (U (Proc.devRef .tc main_arg3) : S64x64.Idx → EReal) j = sv j)
    (g : Fin 64) (i : Fin 192) :
    (StableHlo.after hostOps3 U (Proc.devRef .tc main_v47) : S64x192.Idx → EReal) (ix2 g i)
      = Cert.KSpec.feat (Cert.KSpec.mean p cn) sv g i := by
  show (StableHlo.after hostOps3 U (Proc.devRef .tc main_v47) : S64x192.Idx → EReal) (ix2 g i) = _
  after_results
  unfold Cert.KSpec.feat
  by_cases h : i.val < 128
  · rw [dif_pos h]
    refine (concatenate_pair_apply_left (s₁ := S64x128) (s₂ := S64x64) 1 _ _ _ (ix2 g i) rfl (ix2 g (⟨i.val, h⟩ : Fin 128) : S64x128.Idx)
      (fun b => match b with | ⟨0, _⟩ => rfl | ⟨1, _⟩ => rfl)).trans ?_
    rw [hostDivf_apply, hp]
    unfold Cert.KSpec.mean
    congr 1
    rw [broadcastInDim_apply _ _ _ (ix2 g (⟨i.val, h⟩ : Fin 128) : S64x128.Idx) (ix2 g 0 : S64x1.Idx) (fun b => match b with | ⟨0, _⟩ => rfl | ⟨1, _⟩ => rfl)]
    rw [maximumf_apply, broadcastInDim_scalar_apply, constant_apply]
    congr 1
    refine (shapeCast_apply _ _ (ix2 g 0) (ix2 0 g) ?_).trans (hc g)
    rw [Shape.rowMajor_val_two, Shape.rowMajor_val_two]
    show 0 * 64 + g.val = g.val * 1 + 0
    omega
  · rw [dif_neg h]
    refine (concatenate_pair_apply_right (s₁ := S64x128) (s₂ := S64x64) 1 _ _ _ (ix2 g i) rfl rfl (ix2 g (⟨i.val - 128, by omega⟩ : Fin 64) : S64x64.Idx)
      (fun b => match b with | ⟨0, _⟩ => fun _ => rfl | ⟨1, _⟩ => fun hb => absurd rfl hb) ?_).trans ?_
    · show i.val - 128 + 128 = i.val
      omega
    · exact hs _

end Host

theorem pool_of_entry (a : S50000x128.Idx → EReal) (d : S50000x1.Idx → EReal) (b : S1x128.Idx → EReal) (bt : IVec S50000x1 32)
    (A : Fin 50000 → Fin 128 → EReal) (s : Cert.KSpec.N1.Idx → EReal) (x7 : Cert.KSpec.V128.Idx → EReal) (x2 : IVec Cert.KSpec.N1 32)
    (hA : ∀ n k, a (ix2 n k) = A n k) (hS : ∀ n, d (ix2 n 0) = s (ix1 n)) (hB : ∀ k, b (ix2 0 k) = x7 (ix1 k))
    (hBt : ∀ n, bt (ix2 n 0) = x2 (ix1 n)) (g : Fin 64) (k : Fin 128) :
    (∑ n : Fin 50000, Cert.KSpec.hot (fun i => bt (ix2 (i 0) 0)) n g * max (d (ix2 n 0) * a (ix2 n k) + b (ix2 0 k)) 0)
      = Cert.KSpec.pool x2 (Cert.KSpec.act A s x7) g k := by
  unfold Cert.KSpec.pool Cert.KSpec.act
  refine Finset.sum_congr rfl fun n _ => ?_
  rw [hA, hS, hB]
  congr 1
  unfold Cert.KSpec.hot
  show (if bt (ix2 n 0) = _ then (1 : EReal) else 0) = _
  rw [hBt]

theorem count_of_entry (bt : IVec S50000x1 32) (x2 : IVec Cert.KSpec.N1 32) (hBt : ∀ n, bt (ix2 n 0) = x2 (ix1 n)) (g : Fin 64) :
    (∑ n : Fin 50000, Cert.KSpec.hot (fun i => bt (ix2 (i 0) 0)) n g) = Cert.KSpec.count x2 g := by
  unfold Cert.KSpec.count
  refine Finset.sum_congr rfl fun n _ => ?_
  unfold Cert.KSpec.hot
  show (if bt (ix2 n 0) = _ then (1 : EReal) else 0) = _
  rw [hBt]

abbrev V9of (U8 : Dev nD → Valuation τ sig (Elt Ideal)) :
    (c : Dev nD) → (b : Ref sig .tc) → Buf (Elt Ideal) ((c : Thread nD τ).loc b) :=
  fun c b => StableHlo.after hostOps3 (U8 c) b

theorem chainB_top (U8 : Dev nD → Valuation τ sig (Elt Ideal)) (c : Dev nD) (U10 : Valuation τ sig (Elt Ideal))
    (h50 : ∀ j, (U10 (Proc.devRef .tc main_v50) : S64x8.Idx → EReal) j = ((dat3 (V9of U8) c).arrAt 5 cfg3.N : S64x8.Idx → EReal) j)
    (p : Fin 64 → Fin 128 → EReal) (cn : Fin 64 → EReal)
    (x3 : S64x64.Idx → EReal) (x8 : S192x256.Idx → EReal) (x9 : S256.Idx → EReal) (x10 : S256x8.Idx → EReal) (x11 : S8.Idx → EReal)
    (hp : ∀ g k, (U8 c (Proc.devRef .tc main_v41_0) : S64x128.Idx → EReal) (ix2 g k) = p g k)
    (hc : ∀ g, (U8 c (Proc.devRef .tc main_v41_1) : S1x64.Idx → EReal) (ix2 0 g) = cn g)
    (h3 : ∀ j, (U8 c (Proc.devRef .tc main_arg3) : S64x64.Idx → EReal) j = x3 j)
    (h8 : ∀ j, (U8 c (Proc.devRef .tc main_arg8) : S192x256.Idx → EReal) j = x8 j)
    (h9 : ∀ j, (U8 c (Proc.devRef .tc main_arg9) : S256.Idx → EReal) j = x9 j)
    (h10 : ∀ j, (U8 c (Proc.devRef .tc main_arg10) : S256x8.Idx → EReal) j = x10 j)
    (h11 : ∀ j, (U8 c (Proc.devRef .tc main_arg11) : S8.Idx → EReal) j = x11 j)
    (g : Fin 64) (a : Fin 8) :
    (StableHlo.after hostOps4 U10 (Proc.devRef .tc main_v52) : S64x8.Idx → EReal) (ix2 g a)
      = Cert.KSpec.head (Cert.KSpec.feat (Cert.KSpec.mean p cn) x3) x8 x9 x10 x11 g a := by
  have e47 : ∀ g i, (V9of U8 c main_v47 : S64x192.Idx → EReal) (ix2 g i) = Cert.KSpec.feat (Cert.KSpec.mean p cn) x3 g i :=
    fun g i => host3_v47 (U8 c) p cn x3 hp hc h3 g i
  have e48 : ∀ j, (V9of U8 c main_v48 : S1x256.Idx → EReal) (ix2 0 j) = x9 (ix1 j) := fun j => host3_v48 (U8 c) x9 h9 j
  have e49 : ∀ a, (V9of U8 c main_v49 : S1x8.Idx → EReal) (ix2 0 a) = x11 (ix1 a) := fun a => host3_v49 (U8 c) x11 h11 a
  have e8 : ∀ j, (V9of U8 c main_arg8 : S192x256.Idx → EReal) j = x8 j := fun j =>
    (congrFun (StableHlo.after_of_writes_sub hostOps3 (U8 c) hostOps3_writes (r := main_arg8) (by decide)) j).trans (h8 j)
  have e10 : ∀ j, (V9of U8 c main_arg10 : S256x8.Idx → EReal) j = x10 j := fun j =>
    (congrFun (StableHlo.after_of_writes_sub hostOps3 (U8 c) hostOps3_writes (r := main_arg10) (by decide)) j).trans (h10 j)
  rw [host4_v52 U10 _ h50 g a, final3 (V9of U8) c g a, head3_def]
  unfold Cert.KSpec.head
  simp only [e47, e48, e49, e8, e10]

end Cert.KernelIdeal.Hand

end
-- ==== Proof.Val.ChainB.lean ====
import proofs.«407291_j19164144075375_2_alg».proof.Proof.KI.RunVals
import proofs.«407291_j19164144075375_2_alg».proof.Proof.Val.F2
import proofs.«407291_j19164144075375_2_alg».proof.Proof.Val.F2c
import proofs.«407291_j19164144075375_2_alg».proof.Proof.Val.ChainBTop

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

section Run
variable (m : (ℓ : Loc nD τ sig) → Buf (Elt Ideal) ℓ) (ρ : Dev nD → PrngReg)

theorem chainB (c : Dev nD) (A : Fin 50000 → Fin 128 → EReal) (s : S50000.Idx → EReal)
    (hA : ∀ n k, (V7 m ρ c main_v38 : S50000x128.Idx → EReal) (ix2 n k) = A n k)
    (hS : ∀ n, (V7 m ρ c main_v15 : S50000x1.Idx → EReal) (ix2 n 0) = s (ix1 n))
    (hB : ∀ k, (V7 m ρ c main_v40 : S1x128.Idx → EReal) (ix2 0 k) = (m ((c : Thread nD τ).loc main_arg7) : S128.Idx → EReal) (ix1 k))
    (hBt : ∀ n, (V7 m ρ c main_v39 : IVec S50000x1 32) (ix2 n 0) = (m ((c : Thread nD τ).loc main_arg2) : IVec S50000 32) (ix1 n))
    (g : Fin 64) (a : Fin 8) :
    (W11 m ρ c (Proc.devRef .tc main_v52) : S64x8.Idx → EReal) (ix2 g a)
      = Cert.KSpec.head
          (Cert.KSpec.feat
            (Cert.KSpec.mean
              (Cert.KSpec.pool (m ((c : Thread nD τ).loc main_arg2))
                (Cert.KSpec.act A s (m ((c : Thread nD τ).loc main_arg7))))
              (Cert.KSpec.count (m ((c : Thread nD τ).loc main_arg2))))
            (m ((c : Thread nD τ).loc main_arg3)))
          (m ((c : Thread nD τ).loc main_arg8)) (m ((c : Thread nD τ).loc main_arg9))
          (m ((c : Thread nD τ).loc main_arg10)) (m ((c : Thread nD τ).loc main_arg11)) g a :=
  chainB_top (W8 m ρ) c (W10 m ρ c) (fun j => congrFun (W10_arr m ρ c 5) j)
    (Cert.KSpec.pool (m ((c : Thread nD τ).loc main_arg2)) (Cert.KSpec.act A s (m ((c : Thread nD τ).loc main_arg7))))
    (Cert.KSpec.count (m ((c : Thread nD τ).loc main_arg2)))
    (m ((c : Thread nD τ).loc main_arg3)) (m ((c : Thread nD τ).loc main_arg8)) (m ((c : Thread nD τ).loc main_arg9))
    (m ((c : Thread nD τ).loc main_arg10)) (m ((c : Thread nD τ).loc main_arg11))
    (fun g k => (congrFun (W8_arr m ρ c 4) (ix2 g k)).trans <|
      (final2_0 (V7 m ρ) c _ _ _ _ rfl rfl rfl rfl g k).trans <|
      pool_of_entry _ _ _ _ A s _ _ hA hS hB hBt g k)
    (fun g => (congrFun (W8_arr m ρ c 5) (ix2 0 g)).trans <|
      (final2_1 (V7 m ρ) c _ rfl g).trans <| count_of_entry _ _ hBt g)
    (fun j => congrFun ((W8_keep m ρ c main_arg3 (by decide)).trans (W7_arg m ρ c main_arg3 (by decide))) j) (fun j => congrFun ((W8_keep m ρ c main_arg8 (by decide)).trans (W7_arg m ρ c main_arg8 (by decide))) j)
    (fun j => congrFun ((W8_keep m ρ c main_arg9 (by decide)).trans (W7_arg m ρ c main_arg9 (by decide))) j) (fun j => congrFun ((W8_keep m ρ c main_arg10 (by decide)).trans (W7_arg m ρ c main_arg10 (by decide))) j)
    (fun j => congrFun ((W8_keep m ρ c main_arg11 (by decide)).trans (W7_arg m ρ c main_arg11 (by decide))) j) g a

end Run

end Cert.KernelIdeal.Hand

end
-- ==== Proof.LibGatherRows.lean ====
import Idealize.ShloMosaic.PureOps.ShapeOps
import Idealize.ShloMosaic.Lib.ValueIdx

namespace Cert.Lib.GatherRows

open Idealize.ShloMosaic Idealize.ShloMosaic.ValueIdx

private theorem batch2 {N D n : Nat} (d : GatherDims ⟨2, ![N, D]⟩ ⟨2, ![n, 1]⟩ ⟨2, ![n, D]⟩)
    (hoff : d.offsetDims = [1]) (p : Fin n) (q : Fin D) (X : Fin 2) (hX : X ∈ d.batchDims) :
    (ix2 p q X).val = p.val := by
  have h : X ∉ d.offsetDims := by
    simpa [GatherDims.batchDims, Shape.kept, List.mem_filter, List.mem_finRange] using hX
  rw [hoff] at h
  match X with
  | ⟨0, _⟩ => rfl
  | ⟨1, _⟩ => exact absurd (List.mem_singleton.mpr rfl) h

private theorem off2 {N D n : Nat} (d : GatherDims ⟨2, ![N, D]⟩ ⟨2, ![n, 1]⟩ ⟨2, ![n, D]⟩)
    (hoff : d.offsetDims = [1]) (p : Fin n) (q : Fin D) (X : Fin 2) (hX : X ∈ d.offsetDims) :
    (ix2 p q X).val = q.val := by
  rw [hoff] at hX
  obtain rfl : X = 1 := List.mem_singleton.mp hX
  rfl

private theorem siIdx2 {N D n : Nat} (d : GatherDims ⟨2, ![N, D]⟩ ⟨2, ![n, 1]⟩ ⟨2, ![n, D]⟩)
    (hoff : d.offsetDims = [1]) (hivd : d.indexVectorDim = 1) (p : Fin n) (q : Fin D)
    (c : Fin d.startIndexMap.length) : d.siIdx (ix2 p q) c = ix2 p 0 := by
  funext b
  match b with
  | ⟨0, _⟩ =>
    unfold GatherDims.siIdx
    rw [dif_neg (by rw [hivd]; exact Nat.zero_ne_one)]
    unfold GatherDims.siCoord
    apply Fin.ext
    simp only [Fin.val_cast]
    exact batch2 d hoff p q _ (List.getElem_mem _)
  | ⟨1, _⟩ =>
    show (_ : Fin 1) = _
    exact Subsingleton.elim _ _

theorem gather_rows2 {α : Type} {N D n w : Nat} (hN : 0 < N)
    (d : GatherDims ⟨2, ![N, D]⟩ ⟨2, ![n, 1]⟩ ⟨2, ![n, D]⟩)
    (hoff : d.offsetDims = [1]) (hcoll : d.collapsedSliceDims = [0]) (hob : d.operandBatchingDims = [])
    (hsim : d.startIndexMap = [0]) (hivd : d.indexVectorDim = 1)
    (x : (⟨2, ![N, D]⟩ : Shape).Idx → α) (idx : IVec ⟨2, ![n, 1]⟩ w) (p : Fin n) (q : Fin D) :
    Host.gather d x idx (ix2 p q) = x (ix2 ⟨min (idx (ix2 p 0)).toInt.toNat (N - 1), by omega⟩ q) := by
  unfold Host.gather
  congr 1
  funext a
  have hb : ∀ a : Fin 2, a ∉ d.operandBatchingDims := by intro a; rw [hob]; exact List.not_mem_nil
  match a with
  | ⟨0, _⟩ =>
    apply Fin.ext
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0
      = min (idx (ix2 p 0)).toInt.toNat (N - 1)
    rw [d.batchCoord_eq_zero _ _ (hb 0), d.offCoord_eq_zero _ _ hk]
    simp only [Nat.add_zero]
    unfold GatherDims.start
    rw [dif_pos hm, siIdx2 d hoff hivd p q]
    show min (idx (ix2 p 0)).toInt.toNat (N - d.sliceSizes 0) = _
    rw [hsl]
  | ⟨1, _⟩ =>
    apply Fin.ext
    have hk : (1 : Fin 2) ∈ d.sKept := by rw [GatherDims.mem_sKept, hcoll, hob]; simp
    have hm : (1 : Fin 2) ∉ d.startIndexMap := by rw [hsim]; simp
    show d.start (ix2 p q) idx 1 + d.batchCoord (ix2 p q) 1 + d.offCoord (ix2 p q) 1 = q.val
    rw [d.batchCoord_eq_zero _ _ (hb 1), Nat.add_zero]
    unfold GatherDims.start GatherDims.offCoord
    rw [dif_neg hm, dif_pos hk, Nat.zero_add]
    exact off2 d hoff p q _ (List.getElem_mem _)

end Cert.Lib.GatherRows
-- ==== Proof.Alg.Law.lean ====
import Idealize.ShloMosaic.PureOps.Ideal
import Idealize.ShloMosaic.PureOps.ShapeOps
import Idealize.ShloMosaic.Lib.ValueIdx
import proofs.«407291_j19164144075375_2_alg».proof.Proof.LibGatherRows

namespace Cert.Alg

open Idealize.ShloMosaic Idealize.ShloMosaic.ValueIdx
open scoped BigOperators

abbrev T  : Shape := ⟨2, ![50000, 128]⟩
abbrev N1 : Shape := ⟨1, ![50000]⟩
abbrev EI : Shape := ⟨2, ![550000, 1]⟩
abbrev E2 : Shape := ⟨2, ![550000, 128]⟩
abbrev E1 : Shape := ⟨1, ![550000]⟩

theorem nonneg_real_mul_sum {ι : Type} (S : Finset ι) (a : ι → EReal) (c : EReal)
    (hc : ∃ r : ℝ, 0 ≤ r ∧ c = (r : EReal)) : c * ∑ j ∈ S, a j = ∑ j ∈ S, c * a j := by
  classical
  obtain ⟨r, hr, rfl⟩ := hc
  have h0 : (0 : EReal) ≤ (r : EReal) := EReal.coe_nonneg.mpr hr
  induction S using Finset.induction_on with
  | empty => simp
  | insert j S hj ih =>
    rw [Finset.sum_insert hj, Finset.sum_insert hj,
      EReal.left_distrib_of_nonneg_of_ne_top h0 (EReal.coe_ne_top r), ih]

section Scatter2

variable {N D n w : Nat} (d : ScatterDims ⟨2, ![N, D]⟩ ⟨2, ![n, 1]⟩ ⟨2, ![n, D]⟩)

private theorem usc2 (huw : d.updateWindowDims = [1]) (e : Fin n) (q : Fin D) (X : Fin 2) (hX : X ∈ d.uScatter) :
    (ix2 e q X).val = e.val := by
  have h : X ∉ d.updateWindowDims := by
    simpa [ScatterDims.uScatter, Shape.kept, List.mem_filter, List.mem_finRange] using hX
  rw [huw] at h
  match X with
  | ⟨0, _⟩ => rfl
  | ⟨1, _⟩ => exact absurd (List.mem_singleton.mpr rfl) h

private theorem siIdxS2 (huw : d.updateWindowDims = [1]) (hivd : d.indexVectorDim = 1) (e : Fin n) (q : Fin D)
    (c : Fin d.scatterDimsToOperandDims.length) : d.siIdx (ix2 e q) c = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    exact usc2 d huw e q _ (List.getElem_mem _)
  | ⟨1, _⟩ =>
    show (_ : Fin 1) = _
    exact Subsingleton.elim _ _

private theorem startS2_0 (huw : d.updateWindowDims = [1]) (hsd : d.scatterDimsToOperandDims = [0])
    (hivd : d.indexVectorDim = 1) (idx : IVec ⟨2, ![n, 1]⟩ w) (e : Fin n) (q : Fin D) :
    d.start (ix2 e q) idx 0 = (idx (ix2 e 0)).toInt := by
  have hm : (0 : Fin 2) ∈ d.scatterDimsToOperandDims := by rw [hsd]; exact List.mem_singleton.mpr rfl
  unfold ScatterDims.start
  rw [dif_pos hm, siIdxS2 d huw hivd e q]

private theorem startS2_1 (hsd : d.scatterDimsToOperandDims = [0]) (idx : IVec ⟨2, ![n, 1]⟩ w) (e : Fin n)
    (q : Fin D) : d.start (ix2 e q) idx 1 = 0 := by
  have hm : (1 : Fin 2) ∉ d.scatterDimsToOperandDims := by rw [hsd]; simp
  unfold ScatterDims.start
  rw [dif_neg hm]

private theorem windowS2_0 (hiw : d.insertedWindowDims = [0]) (e : Fin n) (q : Fin D) :
    d.window (ix2 e q) 0 = 0 := by
  have hk : (0 : Fin 2) ∉ d.sKept := by
    simp [ScatterDims.sKept, Shape.kept, List.mem_filter, List.mem_finRange, hiw]
  unfold ScatterDims.window
  rw [dif_neg hk]

private theorem windowS2_1 (huw : d.updateWindowDims = [1]) (hiw : d.insertedWindowDims = [0]) (e : Fin n)
    (q : Fin D) : d.window (ix2 e q) 1 = q.val := by
  have hk : (1 : Fin 2) ∈ d.sKept := by
    simp [ScatterDims.sKept, Shape.kept, List.mem_filter, List.mem_finRange, hiw]
  unfold ScatterDims.window
  rw [dif_pos hk]
  have hX : ∀ X : Fin 2, X ∈ d.updateWindowDims → (ix2 e q X).val = q.val := by
    intro X hX
    rw [huw] at hX
    obtain rfl : X = 1 := List.mem_singleton.mp hX
    rfl
  exact hX _ (List.getElem_mem _)

theorem scatter_rows_hit (huw : d.updateWindowDims = [1]) (hiw : d.insertedWindowDims = [0])
    (hsd : d.scatterDimsToOperandDims = [0]) (hivd : d.indexVectorDim = 1) (idx : IVec ⟨2, ![n, 1]⟩ w)
    (e : Fin n) (q k : Fin D) (m : Fin N) :
    d.resultIdx? (ix2 e q) idx = some (ix2 m k) ↔ (idx (ix2 e 0)).toInt = (m.val : Int) ∧ q = k := by
  have s0 := startS2_0 d huw hsd hivd idx e q
  have s1 := startS2_1 d hsd idx e q
  have w0 := windowS2_0 d hiw e q
  have w1 := windowS2_1 d huw hiw e q
  unfold ScatterDims.resultIdx?
  constructor
  · intro h
    split at h
    · rename_i hin
      have hf := Option.some.inj h
      have h0 := congrArg (fun f => (f 0).val) hf
      have h1 := congrArg (fun f => (f 1).val) hf
      have hin0 := (hin 0).1
      simp only [s0, s1, w0, w1] at h0 h1 hin0
      refine ⟨?_, Fin.ext ?_⟩
      · have : ((idx (ix2 e 0)).toInt + ((0 : Nat) : Int)).toNat = m.val := h0
        omega
      · have : ((0 : Int) + (q.val : Int)).toNat = k.val := h1
        omega
    · exact absurd h (by simp)
  · rintro ⟨hi, rfl⟩
    have hin : ∀ a, 0 ≤ d.start (ix2 e q) idx a + d.window (ix2 e q) a ∧
        d.start (ix2 e q) idx a + d.window (ix2 e q) a < (⟨2, ![N, D]⟩ : Shape).size a := by
      intro a
      match a with
      | ⟨0, _⟩ =>
        show 0 ≤ d.start (ix2 e q) idx 0 + d.window (ix2 e q) 0 ∧
          d.start (ix2 e q) idx 0 + d.window (ix2 e q) 0 < (N : Int)
        rw [s0, w0, hi]
        have := m.isLt
        omega
      | ⟨1, _⟩ =>
        show 0 ≤ d.start (ix2 e q) idx 1 + d.window (ix2 e q) 1 ∧
          d.start (ix2 e q) idx 1 + d.window (ix2 e q) 1 < (D : Int)
        rw [s1, w1]
        have := q.isLt
        omega
    rw [dif_pos hin]
    congr 1
    funext a
    match a with
    | ⟨0, _⟩ =>
      apply Fin.ext
      show (d.start (ix2 e q) idx 0 + d.window (ix2 e q) 0).toNat = m.val
      rw [s0, w0, hi]
      omega
    | ⟨1, _⟩ =>
      apply Fin.ext
      show (d.start (ix2 e q) idx 1 + d.window (ix2 e q) 1).toNat = q.val
      rw [s1, w1]
      omega

end Scatter2

section Scatter1

variable {N n w : Nat} (d : ScatterDims ⟨1, ![N]⟩ ⟨2, ![n, 1]⟩ ⟨1, ![n]⟩)

private theorem siIdxS1 (hivd : d.indexVectorDim = 1) (e : Fin n) (c : Fin d.scatterDimsToOperandDims.length) :
    d.siIdx (ix1 e) c = ix2 e 0 := by
  funext b
  match b with
  | ⟨0, _⟩ =>
    unfold ScatterDims.siIdx
    rw [dif_neg (by rw [hivd]; exact Nat.zero_ne_one)]
    unfold ScatterDims.siCoord
    apply Fin.ext
    simp only [Fin.val_cast]
    have hX : ∀ X : Fin 1, (ix1 e X).val = e.val := by
      intro X
      match X with
      | ⟨0, _⟩ => rfl
    exact hX _
  | ⟨1, _⟩ =>
    show (_ : Fin 1) = _
    exact Subsingleton.elim _ _

theorem scatter_one_hit (hiw : d.insertedWindowDims = [0]) (hsd : d.scatterDimsToOperandDims = [0])
    (hivd : d.indexVectorDim = 1) (idx : IVec ⟨2, ![n, 1]⟩ w) (e : Fin n) (m : Fin N) :
    d.resultIdx? (ix1 e) idx = some (ix1 m) ↔ (idx (ix2 e 0)).toInt = (m.val : Int) := by
  have s0 : d.start (ix1 e) idx 0 = (idx (ix2 e 0)).toInt := by
    have hm : (0 : Fin 1) ∈ d.scatterDimsToOperandDims := by rw [hsd]; exact List.mem_singleton.mpr rfl
    unfold ScatterDims.start
    rw [dif_pos hm, siIdxS1 d hivd e]
  have w0 : d.window (ix1 e) 0 = 0 := by
    have hk : (0 : Fin 1) ∉ d.sKept := by
      simp [ScatterDims.sKept, Shape.kept, List.mem_filter, List.mem_finRange, hiw]
    unfold ScatterDims.window
    rw [dif_neg hk]
  unfold ScatterDims.resultIdx?
  constructor
  · intro h
    split at h
    · rename_i hin
      have hf := Option.some.inj h
      have h0 := congrArg (fun f => (f 0).val) hf
      have hin0 := (hin 0).1
      simp only [s0, w0] at h0 hin0
      have : ((idx (ix2 e 0)).toInt + ((0 : Nat) : Int)).toNat = m.val := h0
      omega
    · exact absurd h (by simp)
  · intro hi
    have hin : ∀ a, 0 ≤ d.start (ix1 e) idx a + d.window (ix1 e) a ∧
        d.start (ix1 e) idx a + d.window (ix1 e) a < (⟨1, ![N]⟩ : Shape).size a := by
      intro a
      match a with
      | ⟨0, _⟩ =>
        show 0 ≤ d.start (ix1 e) idx 0 + d.window (ix1 e) 0 ∧
          d.start (ix1 e) idx 0 + d.window (ix1 e) 0 < (N : Int)
        rw [s0, w0, hi]
        have := m.isLt
        omega
    rw [dif_pos hin]
    congr 1
    funext a
    match a with
    | ⟨0, _⟩ =>
      apply Fin.ext
      show (d.start (ix1 e) idx 0 + d.window (ix1 e) 0).toNat = m.val
      rw [s0, w0, hi]
      omega

end Scatter1

theorem gather_one {α : Type} {N n w : Nat} (hN : 0 < N)
    (d : GatherDims ⟨1, ![N]⟩ ⟨2, ![n, 1]⟩ ⟨1, ![n]⟩)
    (hoff : d.offsetDims = []) (hcoll : d.collapsedSliceDims = [0]) (hsim : d.startIndexMap = [0])
    (hivd : d.indexVectorDim = 1)
    (x : (⟨1, ![N]⟩ : Shape).Idx → α) (idx : IVec ⟨2, ![n, 1]⟩ w) (e : Fin n) :
    Host.gather d x idx (ix1 e) = x (ix1 ⟨min (idx (ix2 e 0)).toInt.toNat (N - 1), by omega⟩) := by
  have hsi : ∀ c : Fin d.startIndexMap.length, d.siIdx (ix1 e) c = ix2 e 0 := by
    intro c
    funext b
    match b with
    | ⟨0, _⟩ =>
      unfold GatherDims.siIdx
      rw [dif_neg (by rw [hivd]; exact Nat.zero_ne_one)]
      unfold GatherDims.siCoord
      apply Fin.ext
      simp only [Fin.val_cast]
      have hX : ∀ X : Fin 1, (ix1 e X).val = e.val := by
        intro X
        match X with
        | ⟨0, _⟩ => rfl
      exact hX _
    | ⟨1, _⟩ =>
      show (_ : Fin 1) = _
      exact Subsingleton.elim _ _
  unfold Host.gather
  congr 1
  funext a
  match a with
  | ⟨0, _⟩ =>
    apply Fin.ext
    have hk : (0 : Fin 1) ∉ d.sKept := by rw [GatherDims.mem_sKept, hcoll]; simp
    have hm : (0 : Fin 1) ∈ d.startIndexMap := by rw [hsim]; exact List.mem_singleton.mpr rfl
    have hb : (0 : Fin 1) ∉ d.operandBatchingDims := fun h => d.sim_disjoint 0 hm h
    have hsl : d.sliceSizes 0 = 1 := d.slice_collapsed 0 (by rw [hcoll]; exact List.mem_singleton.mpr rfl)
    show d.start (ix1 e) idx 0 + d.batchCoord (ix1 e) 0 + d.offCoord (ix1 e) 0
      = min (idx (ix2 e 0)).toInt.toNat (N - 1)
    rw [d.batchCoord_eq_zero _ _ hb, d.offCoord_eq_zero _ _ hk]
    simp only [Nat.add_zero]
    unfold GatherDims.start
    rw [dif_pos hm, hsi]
    show min (idx (ix2 e 0)).toInt.toNat (N - d.sliceSizes 0) = _
    rw [hsl]

theorem scatter_rows_hit_pool {w : Nat}
    (d : ScatterDims ⟨2, ![64, 128]⟩ ⟨2, ![50000, 1]⟩ ⟨2, ![50000, 128]⟩) (huw : d.updateWindowDims = [1])
    (hiw : d.insertedWindowDims = [0]) (hsd : d.scatterDimsToOperandDims = [0]) (hivd : d.indexVectorDim = 1)
    (idx : IVec ⟨2, ![50000, 1]⟩ w) (e : Fin 50000) (q k : Fin 128) (g : Fin 64) :
    d.resultIdx? (ix2 e q) idx = some (ix2 g k) ↔ (idx (ix2 e 0)).toInt = (g.val : Int) ∧ q = k :=
  scatter_rows_hit d huw hiw hsd hivd idx e q k g

theorem scatter_one_hit_pool {w : Nat}
    (d : ScatterDims ⟨1, ![64]⟩ ⟨2, ![50000, 1]⟩ ⟨1, ![50000]⟩) (hiw : d.insertedWindowDims = [0])
    (hsd : d.scatterDimsToOperandDims = [0]) (hivd : d.indexVectorDim = 1) (idx : IVec ⟨2, ![50000, 1]⟩ w)
    (e : Fin 50000) (g : Fin 64) :
    d.resultIdx? (ix1 e) idx = some (ix1 g) ↔ (idx (ix2 e 0)).toInt = (g.val : Int) :=
  scatter_one_hit d hiw hsd hivd idx e g

theorem layer_law
    (dG : GatherDims T EI E2) (hGoff : dG.offsetDims = [1]) (hGcoll : dG.collapsedSliceDims = [0])
    (hGob : dG.operandBatchingDims = []) (hGsim : dG.startIndexMap = [0]) (hGivd : dG.indexVectorDim = 1)
    (dG1 : GatherDims N1 EI E1) (h1off : dG1.offsetDims = []) (h1coll : dG1.collapsedSliceDims = [0])
    (h1ob : dG1.operandBatchingDims = []) (h1sim : dG1.startIndexMap = [0]) (h1ivd : dG1.indexVectorDim = 1)
    (dS : ScatterDims T EI E2) (hSuw : dS.updateWindowDims = [1]) (hSiw : dS.insertedWindowDims = [0])
    (hSsd : dS.scatterDimsToOperandDims = [0]) (hSivd : dS.indexVectorDim = 1)
    (h : T.Idx → EReal) (s : N1.Idx → EReal) (hs : ∀ i, ∃ r : ℝ, 0 ≤ r ∧ s i = (r : EReal))
    (iR iCw iC : IVec EI 32)
    (hCw : ∀ e : Fin 550000, 0 ≤ (iC (ix2 e 0)).toInt → (iC (ix2 e 0)).toInt < 50000 →
      iCw (ix2 e 0) = iC (ix2 e 0))
    (n : Fin 50000) (k : Fin 128) :
    s (ix1 n) * Ideal.hostScatterAdd dS (fun _ => 0) iC
        (Host.gather dG (fun i => h i * s (ix1 ⟨(i 0).val, (i 0).isLt⟩)) iR) (ix2 n k)
      = Ideal.hostScatterAdd dS (fun _ => 0) iC
        (fun j => Host.gather dG h iR j *
          (Host.gather dG1 s iR (ix1 ⟨(j 0).val, (j 0).isLt⟩) *
            Host.gather dG1 s iCw (ix1 ⟨(j 0).val, (j 0).isLt⟩))) (ix2 n k) := by
  unfold Ideal.hostScatterAdd
  simp only [zero_add]
  rw [nonneg_real_mul_sum _ _ _ (hs (ix1 n))]
  refine Finset.sum_congr rfl ?_
  intro j hj
  obtain ⟨e, q, rfl⟩ : ∃ e q, j = ix2 e q := ⟨j 0, j 1, eq_ix2 j⟩
  obtain ⟨hi, rfl⟩ := (scatter_rows_hit dS hSuw hSiw hSsd hSivd iC e q k n).mp (Finset.mem_filter.mp hj).2
  have g1 := Cert.Lib.GatherRows.gather_rows2 (by decide) dG hGoff hGcoll hGob hGsim hGivd
    (fun i => h i * s (ix1 ⟨(i 0).val, (i 0).isLt⟩)) iR e q
  have g2 := Cert.Lib.GatherRows.gather_rows2 (by decide) dG hGoff hGcoll hGob hGsim hGivd h iR e q
  have g3 := gather_one (by decide) dG1 h1off h1coll h1sim h1ivd s iR e
  have g4 : Host.gather dG1 s iCw (ix1 e) = s (ix1 n) := by
    have hmin : min (iCw (ix2 e 0)).toInt.toNat (50000 - 1) = n.val := by
      rw [hCw e (by omega) (by have := n.isLt; omega)]
      have := n.isLt
      omega
    rw [gather_one (by decide) dG1 h1off h1coll h1sim h1ivd s iCw e]
    exact congrArg (fun m => s (ix1 m)) (Fin.ext hmin)
  show s (ix1 n) * Host.gather dG (fun i => h i * s (ix1 ⟨(i 0).val, (i 0).isLt⟩)) iR (ix2 e q)
    = Host.gather dG h iR (ix2 e q) * (Host.gather dG1 s iR (ix1 e) * Host.gather dG1 s iCw (ix1 e))
  rw [g1, g2, g3, g4]
  show s (ix1 n) * (h _ * s _) = h _ * (s _ * s (ix1 n))
  rw [mul_comm, mul_assoc]

end Cert.Alg
-- ==== Proof.Alg.BridgeB.lean ====
import Idealize.ShloMosaic.PureOps.Ideal
import Idealize.ShloMosaic.PureOps.Ideal.Laws
import Idealize.ShloMosaic.PureOps.ShapeOps
import Idealize.ShloMosaic.Lib.ValueIdx
import Idealize.ShloMosaic.Lib.Pipeline.Value
import proofs.«407291_j19164144075375_2_alg».proof.Proof.RefReadP
import proofs.«407291_j19164144075375_2_alg».proof.Proof.Alg.Law
import proofs.«407291_j19164144075375_2_alg».proof.Proof.Alg.KSpec

noncomputable section

namespace Cert.Bridge

open Idealize.ShloMosaic Idealize.ShloMosaic.ValueIdx
open Cert.ReferenceIdeal Cert.ReferenceIdeal.Gen Cert.ReferenceIdeal.ReadP
open scoped BigOperators

variable (x0 : (⟨S50000x128, .f32⟩ : BufTy).Contents (Elt Ideal)) (x1 : (⟨S2x500000, .i32⟩ : BufTy).Contents (Elt Ideal)) (x2 : (⟨S50000, .i32⟩ : BufTy).Contents (Elt Ideal)) (x3 : (⟨S64x64, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S192x256, .f32⟩ : BufTy).Contents (Elt Ideal)) (x9 : (⟨S256, .f32⟩ : BufTy).Contents (Elt Ideal)) (x10 : (⟨S256x8, .f32⟩ : BufTy).Contents (Elt Ideal)) (x11 : (⟨S8, .f32⟩ : BufTy).Contents (Elt Ideal))

private theorem word_toInt_eq_iff (w : BitVec 32) (g : Fin 64) :
    w.toInt = (g.val : Int) ↔ w = BitVec.ofNat 32 g.val := by
  have hg := g.isLt
  have hw := w.isLt
  constructor
  · intro h
    apply BitVec.eq_of_toNat_eq
    rw [BitVec.toNat_ofNat]
    rw [BitVec.toInt_eq_toNat_cond] at h
    split at h <;> omega
  · rintro rfl
    rw [BitVec.toInt_eq_toNat_cond, BitVec.toNat_ofNat]
    have : g.val % 2 ^ 32 = g.val := Nat.mod_eq_of_lt (by omega)
    rw [this]
    split <;> omega

private theorem one_f32 : Ideal.ofBits .f32 0x3F800000#32 = (1 : EReal) := by
  simp [Ideal.ofBits, Ideal.ieee]
  norm_cast
  norm_num

private def idxEquiv1 {n : Nat} : Fin n ≃ (⟨1, ![n]⟩ : Shape).Idx where
  toFun a := ix1 a
  invFun j := j 0
  left_inv _ := rfl
  right_inv j := (eq_ix1 j).symm

private theorem sum_idx1 {M : Type*} [AddCommMonoid M] {n : Nat} (f : (⟨1, ![n]⟩ : Shape).Idx → M) :
    ∑ i, f i = ∑ a : Fin n, f (ix1 a) := (Equiv.sum_comp idxEquiv1 f).symm

private theorem col93 (n : Fin 50000) :
    val_main_v93 (F := Ideal) x2 (ix2 n 0) = x2 (ix1 n) := by
  rw [val_main_v93_apply]
  congr 1
  funext b
  match b with
  | ⟨0, _⟩ => rfl

private theorem col97 (n : Fin 50000) :
    val_main_v97 (F := Ideal) x2 (ix2 n 0) = x2 (ix1 n) := by
  rw [val_main_v97_apply]
  congr 1
  funext b
  match b with
  | ⟨0, _⟩ => rfl

private theorem pool_read (Z : S64x128.Idx → EReal)
    (U : S50000x128.Idx → EReal) (H : Fin 50000 → Fin 128 → EReal) (hH : ∀ n k, H n k = U (ix2 n k))
    (g : Fin 64) (k : Fin 128) :
    Ideal.hostScatterAdd scatter_S64x128_S50000x1_S50000x128_1_0_0_1 Z (val_main_v93 (F := Ideal) x2) U (ix2 g k)
      = Z (ix2 g k) + KSpec.pool x2 H g k := by
  unfold Ideal.hostScatterAdd
  refine congrArg (Z (ix2 g k) + ·) ?_
  rw [Finset.sum_filter, sum_idx2]
  unfold KSpec.pool
  refine Finset.sum_congr rfl fun n _ => ?_
  have hit : ∀ q : Fin 128,
      scatter_S64x128_S50000x1_S50000x128_1_0_0_1.resultIdx? (ix2 n q) (val_main_v93 (F := Ideal) x2) = some (ix2 g k)
        ↔ x2 (ix1 n) = BitVec.ofNat 32 g.val ∧ q = k := by
    intro q
    rw [Cert.Alg.scatter_rows_hit_pool _ rfl rfl rfl rfl, col93, word_toInt_eq_iff]
  by_cases hA : x2 (ix1 n) = BitVec.ofNat 32 g.val
  · have h1 : KSpec.hot x2 n g = 1 := if_pos hA
    rw [h1, one_mul, hH, Finset.sum_eq_single k]
    · exact if_pos ((hit k).mpr ⟨hA, rfl⟩)
    · intro q _ hq
      exact if_neg (fun h => hq ((hit q).mp h).2)
    · intro h
      exact absurd (Finset.mem_univ k) h
  · have h0 : KSpec.hot x2 n g = 0 := if_neg hA
    rw [h0, zero_mul]
    exact Finset.sum_eq_zero fun q _ => if_neg (fun h => hA ((hit q).mp h).1)

private theorem count_read (Z : S64.Idx → EReal)
    (U : S50000.Idx → EReal) (hU : ∀ j, U j = 1) (g : Fin 64) :
    Ideal.hostScatterAdd scatter_S64_S50000x1_S50000_n_0_0_1 Z (val_main_v97 (F := Ideal) x2) U (ix1 g)
      = Z (ix1 g) + KSpec.count x2 g := by
  unfold Ideal.hostScatterAdd
  refine congrArg (Z (ix1 g) + ·) ?_
  rw [Finset.sum_filter, sum_idx1]
  unfold KSpec.count
  refine Finset.sum_congr rfl fun n _ => ?_
  have hit : scatter_S64_S50000x1_S50000_n_0_0_1.resultIdx? (ix1 n) (val_main_v97 (F := Ideal) x2) = some (ix1 g)
      ↔ x2 (ix1 n) = BitVec.ofNat 32 g.val := by
    rw [Cert.Alg.scatter_one_hit_pool _ rfl rfl rfl, col97, word_toInt_eq_iff]
  by_cases hA : x2 (ix1 n) = BitVec.ofNat 32 g.val
  · have h1 : KSpec.hot x2 n g = 1 := if_pos hA
    rw [h1, if_pos (hit.mpr hA), hU]
  · have h0 : KSpec.hot x2 n g = 0 := if_neg hA
    rw [h0, if_neg (fun h => hA (hit.mp h))]

private theorem v94_read
    (H : Fin 50000 → Fin 128 → EReal)
    (hH : ∀ n k, H n k = val_main_v91 (F := Ideal) x0 x1 x4 x5 x6 x7 (ix2 n k)) (g : Fin 64) (k : Fin 128) :
    val_main_v94 (F := Ideal) x0 x1 x2 x4 x5 x6 x7 (ix2 g k) = KSpec.pool x2 H g k := by
  have h := pool_read x2 (val_main_v92 (F := Ideal)) (val_main_v91 (F := Ideal) x0 x1 x4 x5 x6 x7) H hH g k
  have hz : val_main_v92 (F := Ideal) (ix2 g k) = 0 := by
    rw [val_main_v92_apply, val_main_cst_20_apply]
    exact Ideal.ofBits_zero_f32
  rw [hz, zero_add] at h
  exact h

private theorem v98_read (g : Fin 64) :
    val_main_v98 (F := Ideal) x2 (ix1 g) = KSpec.count x2 g := by
  have hU : ∀ j, val_main_v95 (F := Ideal) j = 1 := by
    intro j
    rw [val_main_v95_apply, val_main_cst_21_apply]
    exact one_f32
  have h := count_read x2 (val_main_v96 (F := Ideal)) (val_main_v95 (F := Ideal)) hU g
  have hz : val_main_v96 (F := Ideal) (ix1 g) = 0 := by
    rw [val_main_v96_apply, val_main_cst_22_apply]
    exact Ideal.ofBits_zero_f32
  rw [hz, zero_add] at h
  exact h

private theorem v103_read
    (H : Fin 50000 → Fin 128 → EReal)
    (hH : ∀ n k, H n k = val_main_v91 (F := Ideal) x0 x1 x4 x5 x6 x7 (ix2 n k)) (g : Fin 64) (k : Fin 128) :
    val_main_v103 (F := Ideal) x0 x1 x2 x4 x5 x6 x7 (ix2 g k)
      = KSpec.mean (KSpec.pool x2 H) (KSpec.count x2) g k := by
  have e : idx_main_v101 (idx_main_v102 (ix2 g k)) = ix1 g := by
    funext b
    match b with
    | ⟨0, _⟩ => rfl
  have h99 : val_main_v99 (F := Ideal) (ix1 g) = KSpec.one := by
    rw [val_main_v99_apply, val_main_cst_23_apply]
    rfl
  rw [val_main_v103_apply, v94_read x0 x1 x2 x4 x5 x6 x7 H hH g k, val_main_v102_apply, val_main_v101_apply, e,
    val_main_v100_apply, v98_read x2 g, h99]
  rfl

private theorem v104_read
    (H : Fin 50000 → Fin 128 → EReal)
    (hH : ∀ n k, H n k = val_main_v91 (F := Ideal) x0 x1 x4 x5 x6 x7 (ix2 n k)) (g : Fin 64) (i : Fin 192) :
    val_main_v104 (F := Ideal) x0 x1 x2 x3 x4 x5 x6 x7 (ix2 g i)
      = KSpec.feat (KSpec.mean (KSpec.pool x2 H) (KSpec.count x2)) x3 g i := by
  unfold val_main_v104 KSpec.feat
  by_cases h : i.val < 128
  · rw [dif_pos h, ← v103_read x0 x1 x2 x4 x5 x6 x7 H hH g ⟨i.val, h⟩]
    exact concatenate_pair_apply_left (t := S64x192) (s₁ := S64x128) (s₂ := S64x64) 1
      (val_main_v103 (F := Ideal) x0 x1 x2 x4 x5 x6 x7) x3 _ (ix2 g i) rfl (ix2 g ⟨i.val, h⟩) (fun b => by
      match b with
      | ⟨0, _⟩ => rfl
      | ⟨1, _⟩ => rfl)
  · rw [dif_neg h]
    exact concatenate_pair_apply_right (t := S64x192) (s₁ := S64x128) (s₂ := S64x64) 1
      (val_main_v103 (F := Ideal) x0 x1 x2 x4 x5 x6 x7) x3 _ (ix2 g i) rfl rfl (ix2 g ⟨i.val - 128, by omega⟩) (fun b hb => by
      match b with
      | ⟨0, _⟩ => rfl
      | ⟨1, _⟩ => exact absurd rfl hb) (by show (i.val - 128) + 128 = i.val; omega)

private theorem v109_read
    (H : Fin 50000 → Fin 128 → EReal)
    (hH : ∀ n k, H n k = val_main_v91 (F := Ideal) x0 x1 x4 x5 x6 x7 (ix2 n k)) (g : Fin 64) (j : Fin 256) :
    val_main_v109 (F := Ideal) x0 x1 x2 x3 x4 x5 x6 x7 x8 x9 (ix2 g j)
      = max ((∑ i : Fin 192, KSpec.feat (KSpec.mean (KSpec.pool x2 H) (KSpec.count x2)) x3 g i * x8 (ix2 i j))
          + x9 (ix1 j)) 0 := by
  have h105 : val_main_v105 (F := Ideal) x0 x1 x2 x3 x4 x5 x6 x7 x8 (ix2 g j)
      = ∑ i : Fin 192, KSpec.feat (KSpec.mean (KSpec.pool x2 H) (KSpec.count x2)) x3 g i * x8 (ix2 i j) := by
    rw [val_main_v105_apply]
    refine Finset.sum_congr rfl fun i _ => ?_
    have el : lidx_main_v105 (ix2 g j) i = ix2 g i := by
      funext b
      match b with
      | ⟨0, _⟩ => rfl
      | ⟨1, _⟩ => rfl
    have er : ridx_main_v105 (ix2 g j) i = ix2 i j := by
      funext b
      match b with
      | ⟨0, _⟩ => rfl
      | ⟨1, _⟩ => rfl
    rw [el, er, v104_read x0 x1 x2 x3 x4 x5 x6 x7 H hH g i]
  have e : idx_main_v106 (idx_main_v107 (ix2 g j)) = ix1 j := by
    funext b
    match b with
    | ⟨0, _⟩ => rfl
  have hz : val_main_call4_v0 (F := Ideal) (ix2 g j) = 0 := by
    rw [val_main_call4_v0_apply, val_main_call4_cst_apply]
    exact Ideal.ofBits_zero_f32
  rw [val_main_v109_apply, val_main_v108_apply, h105, val_main_v107_apply, val_main_v106_apply, e, hz]
  rfl

theorem tail
    (H : Fin 50000 → Fin 128 → EReal)
    (hH : ∀ n k, H n k = val_main_v91 (F := Ideal) x0 x1 x4 x5 x6 x7 (ix2 n k)) (g : Fin 64) (a : Fin 8) :
    KSpec.head (KSpec.feat (KSpec.mean (KSpec.pool x2 H) (KSpec.count x2)) x3) x8 x9 x10 x11 g a
      = val_main_v116 (F := Ideal) x0 x1 x2 x3 x4 x5 x6 x7 x8 x9 x10 x11 (ix2 g a) := by
  have h110 : val_main_v110 (F := Ideal) x0 x1 x2 x3 x4 x5 x6 x7 x8 x9 x10 (ix2 g a)
      = ∑ j : Fin 256, max ((∑ i : Fin 192, KSpec.feat (KSpec.mean (KSpec.pool x2 H) (KSpec.count x2)) x3 g i * x8 (ix2 i j))
          + x9 (ix1 j)) 0 * x10 (ix2 j a) := by
    rw [val_main_v110_apply]
    refine Finset.sum_congr rfl fun j _ => ?_
    have el : lidx_main_v110 (ix2 g a) j = ix2 g j := by
      funext b
      match b with
      | ⟨0, _⟩ => rfl
      | ⟨1, _⟩ => rfl
    have er : ridx_main_v110 (ix2 g a) j = ix2 j a := by
      funext b
      match b with
      | ⟨0, _⟩ => rfl
      | ⟨1, _⟩ => rfl
    rw [el, er, v109_read x0 x1 x2 x3 x4 x5 x6 x7 x8 x9 H hH g j]
  have e112 : idx_main_v111 (idx_main_v112 (ix2 g a)) = ix1 a := by
    funext b
    match b with
    | ⟨0, _⟩ => rfl
  have h112 : val_main_v112 (F := Ideal) x11 (ix2 g a) = x11 (ix1 a) := by
    rw [val_main_v112_apply, val_main_v111_apply, e112]
  have h115 : val_main_v115 (F := Ideal) (ix2 g a) = KSpec.one := by
    rw [val_main_v115_apply, val_main_cst_24_apply]
    rfl
  rw [val_main_v116_apply, val_main_v114_apply, val_main_v113_apply, h110, h112, h115]
  unfold KSpec.head
  simp only [Ideal.mulf_def, Ideal.hostUnary_tanh_def, Ideal.addf_def]

end Cert.Bridge

end
-- ==== Proof.Val.F0.lean ====
import proofs.«407291_j19164144075375_2_alg».proof.Proof.KI.R0
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

theorem matmul0_apply (a : FVec Ideal S5000x128 .bf16) (b : FVec Ideal S128x128 .bf16) (p : Fin 5000) (q : Fin 128) :
    matmul dot_S5000x128_S128x128_S5000x128_1_0_0_1_n_n none a b (constant S5000x128 .f32 0x00000000#32) (ix2 p q)
      = ∑ j : Fin 128, a (ix2 p j) * b (ix2 j q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_0 _ _).trans hk
    | ⟨1, _⟩ => exact rhs0_1 _ _)
  rw [el, er]

theorem pay0_apply (x0 : Vec Ideal S5000x128 .f32) (x1 : Vec Ideal S128x128 .f32) (x2 : Vec Ideal S5000x1 .f32) (p : Fin 5000) (q : Fin 128) :
    k0_pay1 x0 x1 x2 (ix2 p q) = (∑ j : Fin 128, x0 (ix2 p j) * x1 (ix2 j q)) * x2 (ix2 p (0 : Fin 1)) := by
  unfold k0_pay1
  rw [mulf_apply, matmul0_apply, shapeCast_self,
    broadcastTo_apply x2 broadcasts_S5000x1_S5000x128 (ix2 p q) (ix2 p (0 : Fin 1)) (fun a => by
      match a with
      | ⟨0, _⟩ => rfl
      | ⟨1, _⟩ => rfl)]
  rfl

variable (V : (c : Dev nD) → (b : Ref sig .tc) → Buf (Elt Ideal) ((c : Thread nD τ).loc b))

def linScale (a0 : Vec Ideal S50000x128 .f32) (a1 : Vec Ideal S128x128 .f32) (a2 : Vec Ideal S50000x1 .f32) : Vec Ideal S50000x128 .f32 :=
  fun i => (∑ j : Fin 128, a0 (ix2 (n0 := 50000) (i 0) j) * a1 (ix2 (n1 := 128) j (i 1))) * a2 (ix2 (n0 := 50000) (i 0) (0 : Fin 1))

theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 10 :=
  (by decide +kernel : ∀ t : Fin grid0.N, _)

theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → EReal) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

theorem iblk0_1_apply (c : Dev nD) (t : Fin cfg0.N) (x : S128x128.Idx) :
    (iblk0 V c 1 t : Vec Ideal S128x128 .f32) x = (V c main_arg4 : S128x128.Idx → EReal) x := by
  obtain ⟨-, -, e0, e1, -⟩ := idx_facts0 t
  unfold iblk0
  rw [View.read_apply]
  show V c main_arg4 _ = V c main_arg4 _
  congr 1
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

theorem iblk0_2_apply (c : Dev nD) (t : Fin cfg0.N) (x : S5000x1.Idx) (k : S50000x1.Idx)
    (hk0 : (k 0).val = 5000 * t.val + (x 0).val) (hk1 : (k 1).val = (x 1).val) :
    (iblk0 V c 2 t : Vec Ideal S5000x1 .f32) x = (V c main_v15 : S50000x1.Idx → EReal) k := by
  obtain ⟨-, -, -, -, e0, e1, -⟩ := idx_facts0 t
  unfold iblk0
  rw [View.read_apply]
  show V c main_v15 _ = V c main_v15 _
  congr 1
  funext a
  apply Fin.ext
  match a with
  | ⟨0, _⟩ => show win0_2.index t 0 * 5000 + 1 * (x 0).val = (k 0).val; rw [e0, hk0]; omega
  | ⟨1, _⟩ => show win0_2.index t 1 * 1 + 1 * (x 1).val = (k 1).val; rw [e1, hk1]; omega

theorem pay0_block (a0 : Vec Ideal S50000x128 .f32) (a1 : Vec Ideal S128x128 .f32) (a2 : Vec Ideal S50000x1 .f32)
    (x0 : Vec Ideal S5000x128 .f32) (x1 : Vec Ideal S128x128 .f32) (x2 : Vec Ideal S5000x1 .f32) (T : ℕ)
    (h0 : ∀ (p : Fin 5000) (j : Fin 128) (n : Fin 50000), n.val = 5000 * T + p.val → x0 (ix2 p j) = a0 (ix2 n j))
    (h1 : ∀ (j q : Fin 128), x1 (ix2 j q) = a1 (ix2 j q))
    (h2 : ∀ (p : Fin 5000) (n : Fin 50000), n.val = 5000 * T + p.val → x2 (ix2 p (0 : Fin 1)) = a2 (ix2 n (0 : Fin 1)))
    (p : Fin 5000) (q : Fin 128) (i : S50000x128.Idx) (hi0 : (i 0).val = 5000 * T + p.val) (hi1 : (i 1).val = q.val) :
    k0_pay1 x0 x1 x2 (ix2 p q) = linScale a0 a1 a2 i := by
  obtain ⟨n, k, rfl⟩ : ∃ (n : Fin 50000) (k : Fin 128), i = ix2 n k := ⟨i 0, i 1, eq_ix2 i⟩
  obtain rfl : k = q := Fin.ext hi1
  rw [pay0_apply]
  show _ = (∑ j : Fin 128, a0 (ix2 n j) * a1 (ix2 j k)) * a2 (ix2 n (0 : Fin 1))
  rw [h2 p n hi0]
  exact congrArg (· * a2 (ix2 n (0 : Fin 1))) (Finset.sum_congr rfl fun j _ => by rw [h0 p j n hi0, h1 j k])

theorem flushed0_3_eq (c : Dev nD) (t : Fin cfg0.N) :
    (dat0 V c).flushed 3 t = ((cfg0.win 3).blk t).view.read (Elt Ideal) (linScale (V c main_arg0) (V c main_arg4) (V c main_v15)) := by
  show (cfg0.win 3).cut (grid0.coords t) ((dat0 V c).after 3 t) = _
  rw [after0_3, out0_3_eq]
  obtain ⟨-, -, -, -, -, -, e0, e1, ht⟩ := idx_facts0 t
  funext y
  have hy0 : (y 0).val < 5000 := (y 0).isLt
  have hy1 : (y 1).val < 128 := (y 1).isLt
  have ey : (cfg0.win 3).xinj (grid0.coords t) y = ix2 (⟨(y 0).val, hy0⟩ : Fin 5000) (⟨(y 1).val, hy1⟩ : Fin 128) := by
    funext a; match a with | ⟨0, _⟩ => rfl | ⟨1, _⟩ => rfl
  rw [View.read_apply]
  show k0_pay1 (iblk0 V c 0 t) (iblk0 V c 1 t) (iblk0 V c 2 t) ((cfg0.win 3).xinj (grid0.coords t) y) = _
  rw [ey]
  refine pay0_block (V c main_arg0) (V c main_arg4) (V c main_v15) (iblk0 V c 0 t) (iblk0 V c 1 t) (iblk0 V c 2 t) t.val
    (fun p j n hn => iblk0_0_apply V c t (ix2 p j) (ix2 n j) hn rfl)
    (fun j q => iblk0_1_apply V c t (ix2 j q))
    (fun p n hn => iblk0_2_apply V c t (ix2 p (0 : Fin 1)) (ix2 n (0 : Fin 1)) hn rfl)
    ⟨(y 0).val, hy0⟩ ⟨(y 1).val, hy1⟩ _ ?_ ?_
  · show win0_3.index t 0 * 5000 + 1 * (y 0).val = 5000 * t.val + (y 0).val; rw [e0]; omega
  · show win0_3.index t 1 * 128 + 1 * (y 1).val = (y 1).val; rw [e1]; omega

theorem mem_blk0_3 (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v16).slice (win0_3.rect t)).set ↔ _
  rw [View.set_slice_whole, Rect.mem_set_unit]
  exact Iff.rfl

theorem covered0_3 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, htv⟩ : ∃ t : Fin cfg0.N, t.val = (i 0).val / 5000 := ⟨⟨(i 0).val / 5000, by rw [hN]; omega⟩, rfl⟩
  obtain ⟨-, -, -, -, -, -, e0, e1, -⟩ := idx_facts0 t
  refine ⟨t, flush0_3 t, ?_⟩
  rw [mem_blk0_3]
  intro a
  match a with
  | ⟨0, _⟩ => show win0_3.index t (0 : Fin 2) * 5000 ≤ (i 0).val ∧ (i 0).val < win0_3.index t (0 : Fin 2) * 5000 + 5000; rw [e0, htv]; omega
  | ⟨1, _⟩ => show win0_3.index t (1 : Fin 2) * 128 ≤ (i 1).val ∧ (i 1).val < win0_3.index t (1 : Fin 2) * 128 + 128; rw [e1]; omega

theorem arr0_3 (c : Dev nD) :
    (dat0 V c).arrAt 3 cfg0.N = linScale (V c main_arg0) (V c main_arg4) (V c main_v15) :=
  (dat0 V c).arrAt_eq_of_cover 3 (linScale (V c main_arg0) (V c main_arg4) (V c main_v15)) (fun t _ => flushed0_3_eq V c t) covered0_3

theorem final0 (c : Dev nD) (a0 : Vec Ideal S50000x128 .f32) (a1 : Vec Ideal S128x128 .f32) (a2 : Vec Ideal S50000x1 .f32)
    (h0 : a0 = V c main_arg0) (h1 : a1 = V c main_arg4) (h2 : a2 = V c main_v15) (n : Fin 50000) (k : Fin 128) :
    (dat0 V c).arrAt 3 cfg0.N (ix2 n k) = (∑ j : Fin 128, a0 (ix2 n j) * a1 (ix2 j k)) * a2 (ix2 n (0 : Fin 1)) := by
  subst h0 h1 h2
  rw [arr0_3]
  rfl

end Cert.KernelIdeal.Hand

end
-- ==== Proof.Val.F1.lean ====
import proofs.«407291_j19164144075375_2_alg».proof.Proof.KI.R1
import proofs.«407291_j19164144075375_2_alg».proof.Proof.Val.F0
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

theorem bcast_col_apply (x : Vec Ideal S5000x1 .f32) (p : Fin 5000) (q : Fin 128) :
    broadcastTo S5000x128 x broadcasts_S5000x1_S5000x128 (ix2 p q) = x (ix2 p 0) :=
  broadcastTo_apply x broadcasts_S5000x1_S5000x128 (ix2 p q) (ix2 p 0) (fun a => by
    match a with
    | ⟨0, _⟩ => rfl
    | ⟨1, _⟩ => rfl)

theorem bcast_row_apply (x : Vec Ideal S1x128 .f32) (p : Fin 5000) (q : Fin 128) :
    broadcastTo S5000x128 x broadcasts_S1x128_S5000x128 (ix2 p q) = x (ix2 0 q) :=
  broadcastTo_apply x broadcasts_S1x128_S5000x128 (ix2 p q) (ix2 0 q) (fun a => by
    match a with
    | ⟨0, _⟩ => rfl
    | ⟨1, _⟩ => rfl)

theorem pay1_apply (x0 : Vec Ideal S5000x128 .f32) (x1 : Vec Ideal S5000x1 .f32) (x2 : Vec Ideal S1x128 .f32) (x3 : Vec Ideal S128x128 .f32)
    (p : Fin 5000) (q : Fin 128) :
    k1_pay1 x1 x0 x2 x3 x1 (ix2 p q)
      = (∑ j : Fin 128, max (x1 (ix2 p 0) * x0 (ix2 p j) + x2 (ix2 0 j)) 0 * x3 (ix2 j q)) * x1 (ix2 p 0) := by
  unfold k1_pay1
  simp only [shapeCast_self]
  rw [mulf_apply, matmul0_apply, bcast_col_apply]
  refine congrArg (· * x1 (ix2 p 0)) (Finset.sum_congr rfl fun j _ => ?_)
  rw [truncf_apply, truncf_apply, maximumf_apply, addf_apply, mulf_apply, bcast_col_apply, bcast_row_apply, broadcast_apply]
  show max _ (Ideal.ofBits .f32 0x00000000#32) * _ = _
  rw [Ideal.ofBits_zero_f32]

def res1 (x : Vec Ideal S50000x128 .f32) (s : Vec Ideal S50000x1 .f32) (b : Vec Ideal S1x128 .f32) (w : Vec Ideal S128x128 .f32)
    (n : Fin 50000) (k : Fin 128) : Ideal .f32 :=
  (∑ j : Fin 128, max (s (ix2 n 0) * x (ix2 n j) + b (ix2 0 j)) 0 * w (ix2 j k)) * s (ix2 n 0)

def arr1 (x : Vec Ideal S50000x128 .f32) (s : Vec Ideal S50000x1 .f32) (b : Vec Ideal S1x128 .f32) (w : Vec Ideal S128x128 .f32) :
    Vec Ideal S50000x128 .f32 := fun i => res1 x s b w (i 0) (i 1)

theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

theorem emb1_0 (t : Fin cfg1.N) (p : Fin 5000) (j : Fin 128) (n : Fin 50000) (hn : n.val = t.val * 5000 + p.val) :
    (((cfg1.win 0).blk t).view.emb (ix2 p j) : S50000x128.Idx) = ix2 n j := by
  obtain ⟨e0, e1, -⟩ := idx_facts1 t
  funext a; apply Fin.ext
  match a with
  | ⟨0, _⟩ => show win1_0.index t (0 : Fin 2) * 5000 + 1 * p.val = n.val; omega
  | ⟨1, _⟩ => show win1_0.index t (1 : Fin 2) * 128 + 1 * j.val = j.val; omega

theorem emb1_1 (t : Fin cfg1.N) (p : Fin 5000) (n : Fin 50000) (hn : n.val = t.val * 5000 + p.val) :
    (((cfg1.win 1).blk t).view.emb (ix2 p (0 : Fin 1)) : S50000x1.Idx) = ix2 n (0 : Fin 1) := by
  obtain ⟨-, -, e0, e1, -⟩ := idx_facts1 t
  funext a; apply Fin.ext
  match a with
  | ⟨0, _⟩ => show win1_1.index t (0 : Fin 2) * 5000 + 1 * p.val = n.val; omega
  | ⟨1, _⟩ => show win1_1.index t (1 : Fin 2) * 1 + 1 * 0 = 0; omega

theorem emb1_2 (t : Fin cfg1.N) (j : Fin 128) :
    (((cfg1.win 2).blk t).view.emb (ix2 (0 : Fin 1) j) : S1x128.Idx) = ix2 (0 : Fin 1) j := by
  obtain ⟨-, -, -, -, e0, e1, -⟩ := idx_facts1 t
  funext a; apply Fin.ext
  match a with
  | ⟨0, _⟩ => show win1_2.index t (0 : Fin 2) * 1 + 1 * 0 = 0; omega
  | ⟨1, _⟩ => show win1_2.index t (1 : Fin 2) * 128 + 1 * j.val = j.val; omega

theorem emb1_3 (t : Fin cfg1.N) (j : Fin 128) (q : Fin 128) :
    (((cfg1.win 3).blk t).view.emb (ix2 j q) : S128x128.Idx) = ix2 j q := by
  obtain ⟨-, -, -, -, -, -, e0, e1, -⟩ := idx_facts1 t
  funext a; apply Fin.ext
  match a with
  | ⟨0, _⟩ => show win1_3.index t (0 : Fin 2) * 128 + 1 * j.val = j.val; omega
  | ⟨1, _⟩ => show win1_3.index t (1 : Fin 2) * 128 + 1 * q.val = q.val; omega

theorem emb1_4 (t : Fin cfg1.N) (p : Fin 5000) (q : Fin 128) (n : Fin 50000) (hn : n.val = t.val * 5000 + p.val) :
    (((cfg1.win 4).blk t).view.emb (ix2 p q) : S50000x128.Idx) = ix2 n q := by
  obtain ⟨-, -, -, -, -, -, -, -, e0, e1⟩ := idx_facts1 t
  funext a; apply Fin.ext
  match a with
  | ⟨0, _⟩ => show win1_4.index t (0 : Fin 2) * 5000 + 1 * p.val = n.val; omega
  | ⟨1, _⟩ => show win1_4.index t (1 : Fin 2) * 128 + 1 * q.val = q.val; omega

theorem blk_eq (x : Vec Ideal S50000x128 .f32) (s : Vec Ideal S50000x1 .f32) (b : Vec Ideal S1x128 .f32) (w : Vec Ideal S128x128 .f32)
    (t : Fin cfg1.N) (p : Fin 5000) (q : Fin 128) :
    (∑ j : Fin 128, max (s (((cfg1.win 1).blk t).view.emb (ix2 p (0 : Fin 1))) * x (((cfg1.win 0).blk t).view.emb (ix2 p j))
        + b (((cfg1.win 2).blk t).view.emb (ix2 (0 : Fin 1) j))) 0 * w (((cfg1.win 3).blk t).view.emb (ix2 j q)))
      * s (((cfg1.win 1).blk t).view.emb (ix2 p (0 : Fin 1)))
    = arr1 x s b w (((cfg1.win 4).blk t).view.emb (ix2 p q)) := by
  have ht : t.val < 10 := t.isLt
  have hn : t.val * 5000 + p.val < 50000 := by have := p.isLt; omega
  rw [emb1_4 t p q ⟨t.val * 5000 + p.val, hn⟩ rfl, emb1_1 t p ⟨t.val * 5000 + p.val, hn⟩ rfl]
  simp only [emb1_0 t p _ ⟨t.val * 5000 + p.val, hn⟩ rfl, emb1_2 t, emb1_3 t]
  rfl

theorem flushed1_eq (c : Dev nD) (t : Fin cfg1.N) :
    (dat1 V c).flushed 4 t
      = ((cfg1.win 4).blk t).view.read (Elt Ideal) (arr1 (V c main_v26) (V c main_v15) (V c main_v27) (V c main_arg6)) := by
  show (cfg1.win 4).cut (grid1.coords t) ((dat1 V c).after 4 t) = _
  rw [after1_4, out1_4_eq]
  funext y
  obtain ⟨p, q, rfl⟩ : ∃ (p : Fin 5000) (q : Fin 128), y = ix2 p q := ⟨y 0, y 1, eq_ix2 (n0 := 5000) (n1 := 128) y⟩
  refine (pay1_apply (iblk1 V c 0 t) (iblk1 V c 1 t) (iblk1 V c 2 t) (iblk1 V c 3 t) p q).trans ?_
  exact blk_eq (V c main_v26) (V c main_v15) (V c main_v27) (V c main_arg6) t p q

theorem mem_blk1 (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v28).slice (win1_4.rect t)).set ↔ _
  rw [View.set_slice_whole, Rect.mem_set_unit]
  exact Iff.rfl

theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hlt : (i 0).val / 5000 < 10 := by omega
  refine ⟨⟨(i 0).val / 5000, hlt⟩, flush1_4 _, ?_⟩
  rw [mem_blk1]
  obtain ⟨-, -, -, -, -, -, -, -, e0, e1⟩ := idx_facts1 ⟨(i 0).val / 5000, hlt⟩
  have e0' : win1_4.index ⟨(i 0).val / 5000, hlt⟩ (0 : Fin 2) = (i 0).val / 5000 := e0
  intro a
  match a with
  | ⟨0, _⟩ =>
    show win1_4.index ⟨(i 0).val / 5000, hlt⟩ (0 : Fin 2) * 5000 ≤ (i 0).val ∧ (i 0).val < win1_4.index ⟨(i 0).val / 5000, hlt⟩ (0 : Fin 2) * 5000 + 5000
    omega
  | ⟨1, _⟩ =>
    show win1_4.index ⟨(i 0).val / 5000, hlt⟩ (1 : Fin 2) * 128 ≤ (i 1).val ∧ (i 1).val < win1_4.index ⟨(i 0).val / 5000, hlt⟩ (1 : Fin 2) * 128 + 128
    omega

theorem arrAt1_eq (c : Dev nD) :
    (dat1 V c).arrAt 4 cfg1.N = arr1 (V c main_v26) (V c main_v15) (V c main_v27) (V c main_arg6) :=
  (dat1 V c).arrAt_eq_of_cover 4 _ (fun t _ => flushed1_eq V c t) cover1

theorem final1 (V : (c : Dev nD) → (b : Ref sig .tc) → Buf (Elt Ideal) ((c : Thread nD τ).loc b)) (c : Dev nD) (n : Fin 50000) (k : Fin 128) :
    (dat1 V c).arrAt 4 cfg1.N (ix2 n k) = res1 (V c main_v26) (V c main_v15) (V c main_v27) (V c main_arg6) n k :=
  (congrFun (arrAt1_eq V c) (ix2 n k)).trans rfl

theorem res1_def (x : Vec Ideal S50000x128 .f32) (s : Vec Ideal S50000x1 .f32) (b : Vec Ideal S1x128 .f32) (w : Vec Ideal S128x128 .f32)
    (n : Fin 50000) (k : Fin 128) :
    res1 x s b w n k = (∑ j : Fin 128, max (s (ix2 n 0) * x (ix2 n j) + b (ix2 0 j)) 0 * w (ix2 j k)) * s (ix2 n 0) := rfl

end Cert.KernelIdeal.Hand

end
-- ==== Proof.Val.ChainA.lean ====
import proofs.«407291_j19164144075375_2_alg».proof.Proof.KI.RunVals
import proofs.«407291_j19164144075375_2_alg».proof.Proof.Alg.KSpec
import proofs.«407291_j19164144075375_2_alg».proof.Proof.Val.KIdx
import proofs.«407291_j19164144075375_2_alg».proof.Proof.Val.F0
import proofs.«407291_j19164144075375_2_alg».proof.Proof.Val.F1
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.Tactic

set_option maxRecDepth 16384

noncomputable section

namespace Cert.KernelIdeal.Hand

open Idealize.ShloMosaic Idealize.ShloMosaic.TcCoe Idealize.SL.Sem
open Idealize.ShloMosaic.ValueIdx
open Idealize.ShloMosaic.Pipeline (Dat)
open Cert.KernelIdeal Cert.KernelIdeal.Gen

section ChainA
open scoped BigOperators
variable (m : (ℓ : Loc nD τ sig) → Buf (Elt Ideal) ℓ) (ρ : Dev nD → PrngReg)

abbrev ka0 (c : Dev nD) : Vec Ideal S50000x128 .f32 := m ((c : Thread nD τ).loc main_arg0)
abbrev ka1 (c : Dev nD) : (⟨S2x500000, .i32⟩ : BufTy).Contents (Elt Ideal) := m ((c : Thread nD τ).loc main_arg1)
abbrev ka2 (c : Dev nD) : IVec S50000 32 := m ((c : Thread nD τ).loc main_arg2)
abbrev ka4 (c : Dev nD) : Vec Ideal S128x128 .f32 := m ((c : Thread nD τ).loc main_arg4)
abbrev ka5 (c : Dev nD) : Vec Ideal S128 .f32 := m ((c : Thread nD τ).loc main_arg5)
abbrev ka6 (c : Dev nD) : Vec Ideal S128x128 .f32 := m ((c : Thread nD τ).loc main_arg6)
abbrev ka7 (c : Dev nD) : Vec Ideal S128 .f32 := m ((c : Thread nD τ).loc main_arg7)

theorem W1_v5 (c : Dev nD) :
    (W1 m ρ c (Proc.devRef .tc main_v5) : (⟨S550000, .i32⟩ : BufTy).Contents (Elt Ideal)) = kSrc (F := Ideal) (ka1 m c) := by
  show StableHlo.after hostOps0 _ (Proc.devRef .tc main_v5) = _
  after_results
  rfl

theorem W1_v6 (c : Dev nD) :
    (W1 m ρ c (Proc.devRef .tc main_v6) : (⟨S550000, .i32⟩ : BufTy).Contents (Elt Ideal)) = kDst (F := Ideal) (ka1 m c) := by
  show StableHlo.after hostOps0 _ (Proc.devRef .tc main_v6) = _
  after_results
  rfl

theorem W1_v12 (c : Dev nD) :
    (W1 m ρ c (Proc.devRef .tc main_v12) : (⟨S50000, .i1⟩ : BufTy).Contents (Elt Ideal)) = kPos (F := Ideal) (ka1 m c) := by
  show StableHlo.after hostOps0 _ (Proc.devRef .tc main_v12) = _
  after_results
  rfl

theorem W1_v13 (c : Dev nD) :
    (W1 m ρ c (Proc.devRef .tc main_v13) : (⟨S50000, .f32⟩ : BufTy).Contents (Elt Ideal)) = kRsqrt (F := Ideal) (ka1 m c) := by
  show StableHlo.after hostOps0 _ (Proc.devRef .tc main_v13) = _
  after_results
  rfl

theorem W1_cst_2 (c : Dev nD) :
    (W1 m ρ c (Proc.devRef .tc main_cst_2) : (⟨S_, .f32⟩ : BufTy).Contents (Elt Ideal)) = kElse (F := Ideal) := by
  show StableHlo.after hostOps0 _ (Proc.devRef .tc main_cst_2) = _
  after_results
  rfl

theorem sel_stage (X : Valuation τ sig (Elt Ideal)) :
    (StableHlo.after hostOps0_1 X (Proc.devRef .tc main_v14) : (⟨S50000, .f32⟩ : BufTy).Contents (Elt Ideal))
      = select (X (Proc.devRef .tc main_v12) : (⟨S50000, .i1⟩ : BufTy).Contents (Elt Ideal))
          (X (Proc.devRef .tc main_v13) : (⟨S50000, .f32⟩ : BufTy).Contents (Elt Ideal))
          (broadcastInDim S50000 ![] bcast_S_S50000 (id (X (Proc.devRef .tc main_cst_2) : (⟨S_, .f32⟩ : BufTy).Contents (Elt Ideal)))) := by
  after_results
  rfl

theorem W2_v14 (c : Dev nD) :
    (W2 m ρ c (Proc.devRef .tc main_v14) : (⟨S50000, .f32⟩ : BufTy).Contents (Elt Ideal)) = kS (F := Ideal) (ka1 m c) := by
  refine (sel_stage (W1 m ρ c)).trans ?_
  rw [W1_v12, W1_v13, W1_cst_2]
  rfl

theorem col_stage (X : Valuation τ sig (Elt Ideal)) (n : Fin 50000) :
    (StableHlo.after hostOps0_2 X (Proc.devRef .tc main_v15) : Vec Ideal S50000x1 .f32) (ix2 n 0)
      = (X (Proc.devRef .tc main_v14) : Vec Ideal S50000 .f32) (ix1 n) := by
  have e : (StableHlo.after hostOps0_2 X (Proc.devRef .tc main_v15) : Vec Ideal S50000x1 .f32)
      = shapeCast S50000x1 (X (Proc.devRef .tc main_v14) : Vec Ideal S50000 .f32) shapeCasts_S50000_S50000x1 := by
    after_results
    rfl
  rw [e]
  exact shapeCast_apply _ shapeCasts_S50000_S50000x1 (ix2 n 0) (ix1 n)
    (by rw [Shape.rowMajor_val_two, Shape.rowMajor_val_one]; show n.val = n.val * 1 + 0; omega)

theorem W3_v15 (c : Dev nD) (n : Fin 50000) :
    (W3 m ρ c (Proc.devRef .tc main_v15) : Vec Ideal S50000x1 .f32) (ix2 n 0) = kS (F := Ideal) (ka1 m c) (ix1 n) :=
  (col_stage (W2 m ρ c) n).trans (congrFun (W2_v14 m ρ c) (ix1 n))

theorem V3_arg0 (c : Dev nD) : (V3 m ρ c main_arg0 : Vec Ideal S50000x128 .f32) = ka0 m c :=
  W3_arg m ρ c main_arg0 (by decide)

theorem V3_arg4 (c : Dev nD) : (V3 m ρ c main_arg4 : Vec Ideal S128x128 .f32) = ka4 m c :=
  W3_arg m ρ c main_arg4 (by decide)

theorem W4_v16 (c : Dev nD) (n : Fin 50000) (k : Fin 128) :
    (W4 m ρ c (Proc.devRef .tc main_v16) : Vec Ideal S50000x128 .f32) (ix2 n k)
      = Cert.KSpec.lin (ka0 m c) (ka4 m c) (kS (F := Ideal) (ka1 m c)) n k := by
  refine (congrFun (W4_arr m ρ c 3) (ix2 n k)).trans ?_
  refine (final0 (V3 m ρ) c (ka0 m c) (ka4 m c) (V3 m ρ c main_v15) (V3_arg0 m ρ c).symm (V3_arg4 m ρ c).symm rfl n k).trans ?_
  unfold Cert.KSpec.lin
  exact congrArg _ (W3_v15 m ρ c n)

theorem W4_v16_tab (c : Dev nD) :
    (W4 m ρ c (Proc.devRef .tc main_v16) : Vec Ideal S50000x128 .f32)
      = Cert.KSpec.tab (Cert.KSpec.lin (ka0 m c) (ka4 m c) (kS (F := Ideal) (ka1 m c))) :=
  funext fun i => (congrArg (W4 m ρ c (Proc.devRef .tc main_v16) : Vec Ideal S50000x128 .f32) (eq_ix2 i)).trans
    (W4_v16 m ρ c (i 0) (i 1))

theorem W4_v5 (c : Dev nD) :
    (W4 m ρ c (Proc.devRef .tc main_v5) : (⟨S550000, .i32⟩ : BufTy).Contents (Elt Ideal)) = kSrc (F := Ideal) (ka1 m c) :=
  (W4_of_ne m ρ c main_v5 (by decide)).trans <|
  (W3_of m ρ c main_v5 (by decide)).trans <|
  (W2_of m ρ c main_v5 (by decide)).trans (W1_v5 m ρ c)

theorem W4_v6 (c : Dev nD) :
    (W4 m ρ c (Proc.devRef .tc main_v6) : (⟨S550000, .i32⟩ : BufTy).Contents (Elt Ideal)) = kDst (F := Ideal) (ka1 m c) :=
  (W4_of_ne m ρ c main_v6 (by decide)).trans <|
  (W3_of m ρ c main_v6 (by decide)).trans <|
  (W2_of m ρ c main_v6 (by decide)).trans (W1_v6 m ρ c)

theorem W6_v5 (c : Dev nD) :
    (W6 m ρ c (Proc.devRef .tc main_v5) : (⟨S550000, .i32⟩ : BufTy).Contents (Elt Ideal)) = kSrc (F := Ideal) (ka1 m c) :=
  (W6_of_ne m ρ c main_v5 (by decide)).trans <|
  (W5_of m ρ c main_v5 (by decide)).trans (W4_v5 m ρ c)

theorem W6_v6 (c : Dev nD) :
    (W6 m ρ c (Proc.devRef .tc main_v6) : (⟨S550000, .i32⟩ : BufTy).Contents (Elt Ideal)) = kDst (F := Ideal) (ka1 m c) :=
  (W6_of_ne m ρ c main_v6 (by decide)).trans <|
  (W5_of m ρ c main_v6 (by decide)).trans (W4_v6 m ρ c)

theorem W4_v15 (c : Dev nD) : W4 m ρ c (Proc.devRef .tc main_v15) = W3 m ρ c (Proc.devRef .tc main_v15) :=
  W4_keep m ρ c main_v15 (by decide)

theorem W6_v15 (c : Dev nD) : W6 m ρ c (Proc.devRef .tc main_v15) = W5 m ρ c (Proc.devRef .tc main_v15) :=
  W6_keep m ρ c main_v15 (by decide)

theorem V5_v15 (c : Dev nD) (n : Fin 50000) :
    (V5 m ρ c main_v15 : Vec Ideal S50000x1 .f32) (ix2 n 0) = kS (F := Ideal) (ka1 m c) (ix1 n) :=
  (congrFun ((W5_of m ρ c main_v15 (by decide)).trans (W4_v15 m ρ c)) (ix2 n 0)).trans (W3_v15 m ρ c n)

theorem V7_v15 (c : Dev nD) (n : Fin 50000) :
    (V7 m ρ c main_v15 : Vec Ideal S50000x1 .f32) (ix2 n 0) = kS (F := Ideal) (ka1 m c) (ix1 n) :=
  (congrFun ((W7_of m ρ c main_v15 (by decide)).trans (W6_v15 m ρ c)) (ix2 n 0)).trans (V5_v15 m ρ c n)

theorem V5_arg6 (c : Dev nD) : (V5 m ρ c main_arg6 : Vec Ideal S128x128 .f32) = ka6 m c :=
  W5_arg m ρ c main_arg6 (by decide)

theorem W4_arg5 (c : Dev nD) : (W4 m ρ c (Proc.devRef .tc main_arg5) : Vec Ideal S128 .f32) = ka5 m c :=
  (W4_keep m ρ c main_arg5 (by decide)).trans (W3_arg m ρ c main_arg5 (by decide))

theorem W6_arg7 (c : Dev nD) : (W6 m ρ c (Proc.devRef .tc main_arg7) : Vec Ideal S128 .f32) = ka7 m c :=
  (W6_keep m ρ c main_arg7 (by decide)).trans (W5_arg m ρ c main_arg7 (by decide))

theorem W6_arg2 (c : Dev nD) : (W6 m ρ c (Proc.devRef .tc main_arg2) : IVec S50000 32) = ka2 m c :=
  (W6_keep m ρ c main_arg2 (by decide)).trans (W5_arg m ρ c main_arg2 (by decide))

theorem zeros_tab :
    (broadcastInDim S50000x128 ![] bcast_S_S50000x128 (constant (F := Ideal) S_ .f32 0x00000000#32) : Vec Ideal S50000x128 .f32)
      = fun _ => (0 : EReal) :=
  funext fun j => (broadcastInDim_apply _ bcast_S_S50000x128 _ j ix0 (fun a => a.elim0)).trans Ideal.ofBits_zero_f32

theorem agg_stage (x1 : (⟨S2x500000, .i32⟩ : BufTy).Contents (Elt Ideal))
    (y5 y6 : (⟨S550000, .i32⟩ : BufTy).Contents (Elt Ideal)) (t : Vec Ideal S50000x128 .f32)
    (f : Fin 50000 → Fin 128 → EReal) (h5 : y5 = kSrc (F := Ideal) x1) (h6 : y6 = kDst (F := Ideal) x1)
    (ht : t = Cert.KSpec.tab f) (n : Fin 50000) (k : Fin 128) :
    (Host.scatterAdd scatter_S50000x128_S550000x1_S550000x128_1_0_0_1
      (broadcastInDim S50000x128 ![] bcast_S_S50000x128 (constant (F := Ideal) S_ .f32 0x00000000#32))
      (broadcastInDim S550000x1 ![0] bcast_S550000_S550000x1_0 y6)
      (Host.gather gather_S50000x128_S550000x1_S550000x128_1_0_n_n_0_1_1128 t
        (broadcastInDim S550000x1 ![0] bcast_S550000_S550000x1_0
          (select (cmpi .slt y5 (broadcastInDim S550000 ![] bcast_S_S550000 (constantI S_ 32 0#32)))
            (addi y5 (broadcastInDim S550000 ![] bcast_S_S550000 (constantI S_ 32 50000#32))) y5)))
        : Vec Ideal S50000x128 .f32) (ix2 n k)
      = Cert.KSpec.agg gather_S50000x128_S550000x1_S550000x128_1_0_n_n_0_1_1128 scatter_S50000x128_S550000x1_S550000x128_1_0_0_1
          (kRowW (F := Ideal) x1) (kCol (F := Ideal) x1) f n k := by
  subst h5 h6 ht
  unfold Cert.KSpec.agg kCol kRowW kSrcW kNeg kSrcPlus kZerosI kZeroI kNodesIs kNodesI Host.scatterAdd
  rw [zeros_tab, Ideal.hostScatterAdd_def]
theorem hop1_v26 (X : Valuation τ sig (Elt Ideal)) :
    (StableHlo.after hostOps1 X (Proc.devRef .tc main_v26) : Vec Ideal S50000x128 .f32)
      = Host.scatterAdd scatter_S50000x128_S550000x1_S550000x128_1_0_0_1
      (broadcastInDim S50000x128 ![] bcast_S_S50000x128 (constant (F := Ideal) S_ .f32 0x00000000#32))
      (broadcastInDim S550000x1 ![0] bcast_S550000_S550000x1_0 (X (Proc.devRef .tc main_v6) : (⟨S550000, .i32⟩ : BufTy).Contents (Elt Ideal)))
      (Host.gather gather_S50000x128_S550000x1_S550000x128_1_0_n_n_0_1_1128 (X (Proc.devRef .tc main_v16) : Vec Ideal S50000x128 .f32)
        (broadcastInDim S550000x1 ![0] bcast_S550000_S550000x1_0
          (select (cmpi .slt (X (Proc.devRef .tc main_v5) : (⟨S550000, .i32⟩ : BufTy).Contents (Elt Ideal)) (broadcastInDim S550000 ![] bcast_S_S550000 (constantI S_ 32 0#32)))
            (addi (X (Proc.devRef .tc main_v5) : (⟨S550000, .i32⟩ : BufTy).Contents (Elt Ideal)) (broadcastInDim S550000 ![] bcast_S_S550000 (constantI S_ 32 50000#32)))
            (X (Proc.devRef .tc main_v5) : (⟨S550000, .i32⟩ : BufTy).Contents (Elt Ideal))))) := by
  after_results

theorem W5_v26 (c : Dev nD) (n : Fin 50000) (k : Fin 128) :
    (W5 m ρ c (Proc.devRef .tc main_v26) : Vec Ideal S50000x128 .f32) (ix2 n k)
      = Cert.KSpec.agg gather_S50000x128_S550000x1_S550000x128_1_0_n_n_0_1_1128 scatter_S50000x128_S550000x1_S550000x128_1_0_0_1
          (kRowW (F := Ideal) (ka1 m c)) (kCol (F := Ideal) (ka1 m c))
          (Cert.KSpec.lin (ka0 m c) (ka4 m c) (kS (F := Ideal) (ka1 m c))) n k :=
  (congrFun (hop1_v26 (W4 m ρ c)) (ix2 n k)).trans
    (agg_stage (ka1 m c) _ _ _ _ (W4_v5 m ρ c) (W4_v6 m ρ c) (W4_v16_tab m ρ c) n k)

theorem hop1_v27 (X : Valuation τ sig (Elt Ideal)) (j : Fin 128) :
    (StableHlo.after hostOps1 X (Proc.devRef .tc main_v27) : Vec Ideal S1x128 .f32) (ix2 0 j)
      = (X (Proc.devRef .tc main_arg5) : Vec Ideal S128 .f32) (ix1 j) := by
  have e : (StableHlo.after hostOps1 X (Proc.devRef .tc main_v27) : Vec Ideal S1x128 .f32)
      = shapeCast S1x128 (X (Proc.devRef .tc main_arg5) : Vec Ideal S128 .f32) shapeCasts_S128_S1x128 := by
    after_results <;> rfl
  rw [e]
  exact shapeCast_apply _ shapeCasts_S128_S1x128 (ix2 0 j) (ix1 j)
    (by rw [Shape.rowMajor_val_two, Shape.rowMajor_val_one]; show j.val = 0 * 128 + j.val; omega)

theorem V5_v27 (c : Dev nD) (j : Fin 128) :
    (V5 m ρ c main_v27 : Vec Ideal S1x128 .f32) (ix2 0 j) = ka5 m c (ix1 j) :=
  (hop1_v27 (W4 m ρ c) j).trans (congrFun (W4_arg5 m ρ c) (ix1 j))

theorem res1_spec (x : Vec Ideal S50000x128 .f32) (s : Vec Ideal S50000x1 .f32) (b : Vec Ideal S1x128 .f32)
    (w w' : Vec Ideal S128x128 .f32) (A : Fin 50000 → Fin 128 → EReal) (S : Vec Ideal S50000 .f32) (B : Vec Ideal S128 .f32)
    (n : Fin 50000) (k : Fin 128) (hx : ∀ j, x (ix2 n j) = A n j) (hs : s (ix2 n 0) = S (ix1 n))
    (hb : ∀ j, b (ix2 0 j) = B (ix1 j)) (hw : w = w') :
    res1 x s b w n k = Cert.KSpec.lin2 A S B w' n k := by
  subst hw
  rw [res1_def]
  unfold Cert.KSpec.lin2 Cert.KSpec.act
  rw [hs]
  congr 1
  exact Finset.sum_congr rfl fun j _ => by rw [hx j, hb j]

theorem W6_v28 (c : Dev nD) (n : Fin 50000) (k : Fin 128) :
    (W6 m ρ c (Proc.devRef .tc main_v28) : Vec Ideal S50000x128 .f32) (ix2 n k)
      = Cert.KSpec.lin2
          (Cert.KSpec.agg gather_S50000x128_S550000x1_S550000x128_1_0_n_n_0_1_1128 scatter_S50000x128_S550000x1_S550000x128_1_0_0_1
            (kRowW (F := Ideal) (ka1 m c)) (kCol (F := Ideal) (ka1 m c))
            (Cert.KSpec.lin (ka0 m c) (ka4 m c) (kS (F := Ideal) (ka1 m c))))
          (kS (F := Ideal) (ka1 m c)) (ka5 m c) (ka6 m c) n k := by
  refine (congrFun (W6_arr m ρ c 4) (ix2 n k)).trans ?_
  refine (final1 (V5 m ρ) c n k).trans ?_
  exact res1_spec _ _ _ _ _ _ _ _ n k (fun j => W5_v26 m ρ c n j) (V5_v15 m ρ c n) (fun j => V5_v27 m ρ c j) (V5_arg6 m ρ c)

theorem W6_v28_tab (c : Dev nD) :
    (W6 m ρ c (Proc.devRef .tc main_v28) : Vec Ideal S50000x128 .f32)
      = Cert.KSpec.tab (Cert.KSpec.lin2
          (Cert.KSpec.agg gather_S50000x128_S550000x1_S550000x128_1_0_n_n_0_1_1128 scatter_S50000x128_S550000x1_S550000x128_1_0_0_1
            (kRowW (F := Ideal) (ka1 m c)) (kCol (F := Ideal) (ka1 m c))
            (Cert.KSpec.lin (ka0 m c) (ka4 m c) (kS (F := Ideal) (ka1 m c))))
          (kS (F := Ideal) (ka1 m c)) (ka5 m c) (ka6 m c)) :=
  funext fun i => (congrArg (W6 m ρ c (Proc.devRef .tc main_v28) : Vec Ideal S50000x128 .f32) (eq_ix2 i)).trans
    (W6_v28 m ρ c (i 0) (i 1))

theorem hop2_v38 (X : Valuation τ sig (Elt Ideal)) :
    (StableHlo.after hostOps2 X (Proc.devRef .tc main_v38) : Vec Ideal S50000x128 .f32)
      = Host.scatterAdd scatter_S50000x128_S550000x1_S550000x128_1_0_0_1
      (broadcastInDim S50000x128 ![] bcast_S_S50000x128 (constant (F := Ideal) S_ .f32 0x00000000#32))
      (broadcastInDim S550000x1 ![0] bcast_S550000_S550000x1_0 (X (Proc.devRef .tc main_v6) : (⟨S550000, .i32⟩ : BufTy).Contents (Elt Ideal)))
      (Host.gather gather_S50000x128_S550000x1_S550000x128_1_0_n_n_0_1_1128 (X (Proc.devRef .tc main_v28) : Vec Ideal S50000x128 .f32)
        (broadcastInDim S550000x1 ![0] bcast_S550000_S550000x1_0
          (select (cmpi .slt (X (Proc.devRef .tc main_v5) : (⟨S550000, .i32⟩ : BufTy).Contents (Elt Ideal)) (broadcastInDim S550000 ![] bcast_S_S550000 (constantI S_ 32 0#32)))
            (addi (X (Proc.devRef .tc main_v5) : (⟨S550000, .i32⟩ : BufTy).Contents (Elt Ideal)) (broadcastInDim S550000 ![] bcast_S_S550000 (constantI S_ 32 50000#32)))
            (X (Proc.devRef .tc main_v5) : (⟨S550000, .i32⟩ : BufTy).Contents (Elt Ideal))))) := by
  after_results <;> rfl

theorem hop2_v39 (X : Valuation τ sig (Elt Ideal)) (n : Fin 50000) :
    (StableHlo.after hostOps2 X (Proc.devRef .tc main_v39) : IVec S50000x1 32) (ix2 n 0)
      = (X (Proc.devRef .tc main_arg2) : IVec S50000 32) (ix1 n) := by
  have e : (StableHlo.after hostOps2 X (Proc.devRef .tc main_v39) : IVec S50000x1 32)
      = shapeCast S50000x1 (X (Proc.devRef .tc main_arg2) : IVec S50000 32) shapeCasts_S50000_S50000x1 := by
    after_results <;> rfl
  rw [e]
  exact shapeCast_apply _ shapeCasts_S50000_S50000x1 (ix2 n 0) (ix1 n)
    (by rw [Shape.rowMajor_val_two, Shape.rowMajor_val_one]; show n.val = n.val * 1 + 0; omega)

theorem hop2_v40 (X : Valuation τ sig (Elt Ideal)) (j : Fin 128) :
    (StableHlo.after hostOps2 X (Proc.devRef .tc main_v40) : Vec Ideal S1x128 .f32) (ix2 0 j)
      = (X (Proc.devRef .tc main_arg7) : Vec Ideal S128 .f32) (ix1 j) := by
  have e : (StableHlo.after hostOps2 X (Proc.devRef .tc main_v40) : Vec Ideal S1x128 .f32)
      = shapeCast S1x128 (X (Proc.devRef .tc main_arg7) : Vec Ideal S128 .f32) shapeCasts_S128_S1x128 := by
    after_results <;> rfl
  rw [e]
  exact shapeCast_apply _ shapeCasts_S128_S1x128 (ix2 0 j) (ix1 j)
    (by rw [Shape.rowMajor_val_two, Shape.rowMajor_val_one]; show j.val = 0 * 128 + j.val; omega)

theorem V7_v38 (c : Dev nD) (n : Fin 50000) (k : Fin 128) :
    (V7 m ρ c main_v38 : Vec Ideal S50000x128 .f32) (ix2 n k)
      = Cert.KSpec.agg gather_S50000x128_S550000x1_S550000x128_1_0_n_n_0_1_1128 scatter_S50000x128_S550000x1_S550000x128_1_0_0_1
          (kRowW (F := Ideal) (ka1 m c)) (kCol (F := Ideal) (ka1 m c))
          (Cert.KSpec.lin2
            (Cert.KSpec.agg gather_S50000x128_S550000x1_S550000x128_1_0_n_n_0_1_1128 scatter_S50000x128_S550000x1_S550000x128_1_0_0_1
              (kRowW (F := Ideal) (ka1 m c)) (kCol (F := Ideal) (ka1 m c))
              (Cert.KSpec.lin (ka0 m c) (ka4 m c) (kS (F := Ideal) (ka1 m c))))
            (kS (F := Ideal) (ka1 m c)) (ka5 m c) (ka6 m c)) n k :=
  (congrFun (hop2_v38 (W6 m ρ c)) (ix2 n k)).trans
    (agg_stage (ka1 m c) _ _ _ _ (W6_v5 m ρ c) (W6_v6 m ρ c) (W6_v28_tab m ρ c) n k)

theorem V7_v40 (c : Dev nD) (k : Fin 128) :
    (V7 m ρ c main_v40 : Vec Ideal S1x128 .f32) (ix2 0 k) = ka7 m c (ix1 k) :=
  (hop2_v40 (W6 m ρ c) k).trans (congrFun (W6_arg7 m ρ c) (ix1 k))

theorem V7_v39 (c : Dev nD) (n : Fin 50000) :
    (V7 m ρ c main_v39 : IVec S50000x1 32) (ix2 n 0) = ka2 m c (ix1 n) :=
  (hop2_v39 (W6 m ρ c) n).trans (congrFun (W6_arg2 m ρ c) (ix1 n))

end ChainA
end Cert.KernelIdeal.Hand
end
-- ==== Proof.Alg.BridgeA.lean ====
import proofs.«407291_j19164144075375_2_alg».proof.Proof.RefReadP
import proofs.«407291_j19164144075375_2_alg».proof.Proof.Alg.Law
import proofs.«407291_j19164144075375_2_alg».proof.Proof.Alg.KSpec
import Idealize.ShloMosaic.Lib.IdealHost

noncomputable section

namespace Cert.Bridge

open Cert.ReferenceIdeal Cert.ReferenceIdeal.Gen Idealize.ShloMosaic Idealize.ShloMosaic.ValueIdx
open scoped BigOperators

variable (x0 : (⟨S50000x128, .f32⟩ : BufTy).Contents (Elt Ideal)) (x1 : (⟨S2x500000, .i32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal))

theorem sum_ones_real {ι : Type} (S : Finset ι) : ∃ r : ℝ, 0 ≤ r ∧ ∑ _j ∈ S, (1 : EReal) = (r : EReal) := by
  classical
  induction S using Finset.induction_on with
  | empty => exact ⟨0, le_refl _, by simp⟩
  | insert j S hj ih =>
    obtain ⟨r, hr, h⟩ := ih
    refine ⟨1 + r, by positivity, ?_⟩
    rw [Finset.sum_insert hj, h, EReal.coe_add, EReal.coe_one]

theorem deg_eq (i : S50000.Idx) :
    ReadP.val_main_v11 (F := Ideal) x1 i
      = ∑ _j ∈ Finset.univ.filter (fun j => scatter_S50000_S550000x1_S550000_n_0_0_1.resultIdx? j
          (ReadP.val_main_v10 (F := Ideal) x1) = some i), (1 : EReal) := by
  show Ideal.hostScatterAdd scatter_S50000_S550000x1_S550000_n_0_0_1 (ReadP.val_main_v9 (F := Ideal))
    (ReadP.val_main_v10 (F := Ideal) x1) (ReadP.val_main_v8 (F := Ideal)) i = _
  unfold Ideal.hostScatterAdd
  have h9 : ReadP.val_main_v9 (F := Ideal) i = 0 := by
    rw [ReadP.val_main_v9_apply, ReadP.val_main_cst_0_apply]; exact Ideal.ofBits_zero_f32
  rw [h9, zero_add]
  refine Finset.sum_congr rfl fun j _ => ?_
  rw [ReadP.val_main_v8_apply, ReadP.val_main_cst_apply]; exact Ideal.ofBits_one_f32

theorem dinv_nonneg (i : S50000.Idx) :
    ∃ r : ℝ, 0 ≤ r ∧ ReadP.val_main_v15 (F := Ideal) x1 i = (r : EReal) := by
  obtain ⟨r, hr, hdeg⟩ := sum_ones_real (Finset.univ.filter (fun j =>
    scatter_S50000_S550000x1_S550000_n_0_0_1.resultIdx? j (ReadP.val_main_v10 (F := Ideal) x1) = some i))
  have h12 : ReadP.val_main_v12 (F := Ideal) i = 0 := by
    rw [ReadP.val_main_v12_apply, ReadP.val_main_cst_1_apply]; exact Ideal.ofBits_zero_f32
  have hc : ReadP.val_main_call0_v1 (F := Ideal) i = 0 := by
    rw [ReadP.val_main_call0_v1_apply, ReadP.val_main_call0_v0_apply, ReadP.val_main_cst_2_apply]
    exact Ideal.ofBits_zero_f32
  rw [ReadP.val_main_v15_apply, ReadP.val_main_v13_apply, ReadP.val_main_v14_apply, deg_eq, hdeg, h12, hc]
  show ∃ r' : ℝ, 0 ≤ r' ∧ Scalar.select (Ideal.cmp .ogt (r : EReal) 0) (Ideal.rsqrt (r : EReal)) 0 = (r' : EReal)
  by_cases h : 0 < r
  · refine ⟨(Real.sqrt r)⁻¹, by positivity, ?_⟩
    have h1 : Ideal.cmp .ogt (r : EReal) 0 = 1 := by
      simp [Ideal.cmp, h]
    rw [h1, Ideal.rsqrt_coe, if_neg (not_lt.mpr hr), if_neg h.ne']
    rfl
  · have h0 : r = 0 := le_antisymm (not_lt.mp h) hr
    subst h0
    refine ⟨0, le_refl _, ?_⟩
    have h1 : Ideal.cmp .ogt ((0 : ℝ) : EReal) 0 = 0 := by
      simp [Ideal.cmp]
    rw [h1]
    rfl

abbrev dG : GatherDims S50000x128 S550000x1 S550000x128 := gather_S50000x128_S550000x1_S550000x128_1_0_n_n_0_1_1128
abbrev dG1 : GatherDims S50000 S550000x1 S550000 := gather_S50000_S550000x1_S550000_n_0_n_n_0_1_1
abbrev dS : ScatterDims S50000x128 S550000x1 S550000x128 := scatter_S50000x128_S550000x1_S550000x128_1_0_0_1

abbrev sc : S50000.Idx → EReal :=
  ReadP.val_main_v15 (F := Ideal) x1
abbrev iR : IVec S550000x1 32 :=
  ReadP.val_main_v36 (F := Ideal) x1
abbrev iC : IVec S550000x1 32 :=
  ReadP.val_main_v42 (F := Ideal) x1
abbrev iCw : IVec S550000x1 32 :=
  ReadP.val_main_v28 (F := Ideal) x1

theorem wrap_nonneg (w a : BitVec 32) (h : 0 ≤ w.toInt) : Scalar.select (IntOp.cmpi .slt w 0#32) a w = w := by
  have hlt : w.slt 0#32 = false := by
    simp only [BitVec.slt, BitVec.toInt_zero, decide_eq_false_iff_not, Int.not_lt]
    exact h
  show (if BitVec.ofBool (w.slt 0#32) = 1 then a else w) = w
  rw [hlt]
  rfl

theorem iCw_eq (e : Fin 550000)
    (h0 : 0 ≤ (iC x1 (ix2 e 0)).toInt) (_h1 : (iC x1 (ix2 e 0)).toInt < 50000) :
    iCw x1 (ix2 e 0) = iC x1 (ix2 e 0) := by
  have hi : ReadP.idx_main_v28 (ix2 e (0 : Fin 1)) = ReadP.idx_main_v42 (ix2 e (0 : Fin 1)) := by
    funext a
    match a with
    | ⟨0, _⟩ => rfl
  show ReadP.val_main_v28 (F := Ideal) x1 (ix2 e 0) = ReadP.val_main_v42 (F := Ideal) x1 (ix2 e 0)
  have h0' : 0 ≤ (ReadP.val_main_v42 (F := Ideal) x1 (ix2 e 0)).toInt := h0
  rw [ReadP.val_main_v42_apply] at h0' ⊢
  rw [ReadP.val_main_v28_apply, ReadP.val_main_v27_apply, ReadP.val_main_v24_apply, ReadP.val_main_v23_apply,
    ReadP.val_main_c_4_apply, hi]
  exact wrap_nonneg _ _ h0'

theorem core (h : S50000x128.Idx → EReal) (n : Fin 50000)
    (k : Fin 128) :
    sc x1 (ix1 n) * Ideal.hostScatterAdd dS (fun _ => 0) (iC x1)
        (Host.gather dG (fun i => h i * sc x1 (ix1 ⟨(i 0).val, (i 0).isLt⟩)) (iR x1)) (ix2 n k)
      = Ideal.hostScatterAdd dS (fun _ => 0) (iC x1)
        (fun j => Host.gather dG h (iR x1) j *
          (Host.gather dG1 (sc x1) (iR x1) (ix1 ⟨(j 0).val, (j 0).isLt⟩) *
            Host.gather dG1 (sc x1) (iCw x1) (ix1 ⟨(j 0).val, (j 0).isLt⟩))) (ix2 n k) :=
  Cert.Alg.layer_law dG rfl rfl rfl rfl rfl dG1 rfl rfl rfl rfl rfl dS rfl rfl rfl rfl h (sc x1) (dinv_nonneg x1)
    (iR x1) (iCw x1) (iC x1) (iCw_eq x1) n k

theorem edge_idx (i : S550000x128.Idx) :
    ReadP.idx_main_v38 (ReadP.idx_main_v39 i) = ix1 ⟨(i 0).val, (i 0).isLt⟩ := by
  funext a
  match a with
  | ⟨0, _⟩ => rfl

theorem bias_idx (n : Fin 50000) (k : Fin 128) :
    ReadP.idx_main_v44 (ReadP.idx_main_v45 (ix2 n k)) = ix1 k := by
  funext a
  match a with
  | ⟨0, _⟩ => rfl

theorem lidx_eq (i : S50000x128.Idx) (k : Fin 128) : ReadP.lidx_main_v4 i k = ix2 (i 0) k := by
  funext a
  match a with
  | ⟨0, _⟩ => rfl
  | ⟨1, _⟩ => rfl
theorem ridx_eq (i : S50000x128.Idx) (k : Fin 128) : ReadP.ridx_main_v4 i k = ix2 k (i 1) := by
  funext a
  match a with
  | ⟨0, _⟩ => rfl
  | ⟨1, _⟩ => rfl

theorem upd1
 :
    ReadP.val_main_v40 (F := Ideal) x0 x1 x4
      = fun j => Host.gather dG (ReadP.val_main_v4 (F := Ideal) x0 x4) (iR x1) j *
          (Host.gather dG1 (sc x1) (iR x1) (ix1 ⟨(j 0).val, (j 0).isLt⟩) *
            Host.gather dG1 (sc x1) (iCw x1) (ix1 ⟨(j 0).val, (j 0).isLt⟩)) := by
  funext j
  rw [ReadP.val_main_v40_apply, ReadP.val_main_v39_apply, ReadP.val_main_v38_apply, ReadP.val_main_v30_apply,
    edge_idx]
  rfl

theorem tab_lin
 (s : S50000.Idx → EReal) :
    Cert.KSpec.tab (Cert.KSpec.lin x0 x4 s)
      = fun i => ReadP.val_main_v4 (F := Ideal) x0 x4 i * s (ix1 ⟨(i 0).val, (i 0).isLt⟩) := by
  funext i
  rw [ReadP.val_main_v4_apply]
  unfold Cert.KSpec.tab Cert.KSpec.lin
  congr 1
  refine Finset.sum_congr rfl fun k _ => ?_
  rw [lidx_eq, ridx_eq]
  rfl

theorem layer1
    (n : Fin 50000) (j : Fin 128) :
    Cert.KSpec.act (Cert.KSpec.agg dG dS (iR x1) (iC x1) (Cert.KSpec.lin x0 x4 (sc x1))) (sc x1) x5 n j
      = ReadP.val_main_v47 (F := Ideal) x0 x1 x4 x5 (ix2 n j) := by
  have hz : ReadP.val_main_call1_v0 (F := Ideal) (ix2 n j) = 0 := by
    rw [ReadP.val_main_call1_v0_apply, ReadP.val_main_call1_cst_apply]; exact Ideal.ofBits_zero_f32
  have hb : ReadP.val_main_v45 (F := Ideal) x5 (ix2 n j) = x5 (ix1 j) := by
    rw [ReadP.val_main_v45_apply, ReadP.val_main_v44_apply, bias_idx]
  have h41 : ReadP.val_main_v41 (F := Ideal) = fun _ => 0 := by
    funext i
    rw [ReadP.val_main_v41_apply, ReadP.val_main_cst_8_apply]; exact Ideal.ofBits_zero_f32
  have h43 : ReadP.val_main_v43 (F := Ideal) x0 x1 x4 (ix2 n j)
      = Ideal.hostScatterAdd dS (ReadP.val_main_v41 (F := Ideal)) (iC x1) (ReadP.val_main_v40 (F := Ideal) x0 x1 x4)
          (ix2 n j) := rfl
  rw [ReadP.val_main_v47_apply, ReadP.val_main_v46_apply, hz, hb, h43, h41, upd1, ← core]
  rw [← tab_lin x0 x4 (sc x1)]
  rfl

theorem v59_eq :
    ReadP.val_main_v59 (F := Ideal) x1 = sc x1 := rfl
theorem v65_eq :
    ReadP.val_main_v65 (F := Ideal) x1 = iR x1 := rfl
theorem v72_eq :
    ReadP.val_main_v72 (F := Ideal) x1 = iCw x1 := rfl
theorem v80_eq :
    ReadP.val_main_v80 (F := Ideal) x1 = iR x1 := rfl
theorem v86_eq :
    ReadP.val_main_v86 (F := Ideal) x1 = iC x1 := rfl

theorem edge_idx2 (i : S550000x128.Idx) :
    ReadP.idx_main_v82 (ReadP.idx_main_v83 i) = ix1 ⟨(i 0).val, (i 0).isLt⟩ := by
  funext a
  match a with
  | ⟨0, _⟩ => rfl

theorem bias_idx2 (n : Fin 50000) (k : Fin 128) :
    ReadP.idx_main_v88 (ReadP.idx_main_v89 (ix2 n k)) = ix1 k := by
  funext a
  match a with
  | ⟨0, _⟩ => rfl

theorem lidx2_eq (i : S50000x128.Idx) (k : Fin 128) : ReadP.lidx_main_v48 i k = ix2 (i 0) k := by
  funext a
  match a with
  | ⟨0, _⟩ => rfl
  | ⟨1, _⟩ => rfl
theorem ridx2_eq (i : S50000x128.Idx) (k : Fin 128) : ReadP.ridx_main_v48 i k = ix2 k (i 1) := by
  funext a
  match a with
  | ⟨0, _⟩ => rfl
  | ⟨1, _⟩ => rfl

theorem upd2
 :
    ReadP.val_main_v84 (F := Ideal) x0 x1 x4 x5 x6
      = fun j => Host.gather dG (ReadP.val_main_v48 (F := Ideal) x0 x1 x4 x5 x6) (iR x1) j *
          (Host.gather dG1 (sc x1) (iR x1) (ix1 ⟨(j 0).val, (j 0).isLt⟩) *
            Host.gather dG1 (sc x1) (iCw x1) (ix1 ⟨(j 0).val, (j 0).isLt⟩)) := by
  funext j
  rw [ReadP.val_main_v84_apply, ReadP.val_main_v83_apply, ReadP.val_main_v82_apply, ReadP.val_main_v74_apply,
    edge_idx2]
  show Host.gather dG (ReadP.val_main_v48 (F := Ideal) x0 x1 x4 x5 x6) (ReadP.val_main_v80 (F := Ideal) x1) j *
      (Host.gather dG1 (ReadP.val_main_v59 (F := Ideal) x1) (ReadP.val_main_v65 (F := Ideal) x1)
          (ix1 ⟨(j 0).val, (j 0).isLt⟩) *
        Host.gather dG1 (ReadP.val_main_v59 (F := Ideal) x1) (ReadP.val_main_v72 (F := Ideal) x1)
          (ix1 ⟨(j 0).val, (j 0).isLt⟩)) = _
  rw [v80_eq, v59_eq, v65_eq, v72_eq]

theorem tab_lin2
 :
    Cert.KSpec.tab (Cert.KSpec.lin2 (Cert.KSpec.agg dG dS (iR x1) (iC x1) (Cert.KSpec.lin x0 x4 (sc x1))) (sc x1) x5 x6)
      = fun i => ReadP.val_main_v48 (F := Ideal) x0 x1 x4 x5 x6 i * sc x1 (ix1 ⟨(i 0).val, (i 0).isLt⟩) := by
  funext i
  rw [ReadP.val_main_v48_apply]
  show (∑ j : Fin 128, Cert.KSpec.act (Cert.KSpec.agg dG dS (iR x1) (iC x1) (Cert.KSpec.lin x0 x4 (sc x1))) (sc x1) x5
      (i 0) j * x6 (ix2 j (i 1))) * sc x1 (ix1 (i 0)) = _
  refine congrArg (fun z => z * sc x1 (ix1 (i 0))) ?_
  refine Finset.sum_congr rfl fun k _ => ?_
  rw [layer1 x0 x1 x4 x5 (i 0) k, lidx2_eq, ridx2_eq]
  rfl

theorem layer2
    (n : Fin 50000) (k : Fin 128) :
    Cert.KSpec.act (Cert.KSpec.agg dG dS (iR x1) (iC x1)
        (Cert.KSpec.lin2 (Cert.KSpec.agg dG dS (iR x1) (iC x1) (Cert.KSpec.lin x0 x4 (sc x1))) (sc x1) x5 x6))
        (sc x1) x7 n k
      = ReadP.val_main_v91 (F := Ideal) x0 x1 x4 x5 x6 x7 (ix2 n k) := by
  have hz : ReadP.val_main_call3_v0 (F := Ideal) (ix2 n k) = 0 := by
    rw [ReadP.val_main_call3_v0_apply, ReadP.val_main_call3_cst_apply]; exact Ideal.ofBits_zero_f32
  have hb : ReadP.val_main_v89 (F := Ideal) x7 (ix2 n k) = x7 (ix1 k) := by
    rw [ReadP.val_main_v89_apply, ReadP.val_main_v88_apply, bias_idx2]
  have h85 : ReadP.val_main_v85 (F := Ideal) = fun _ => 0 := by
    funext i
    rw [ReadP.val_main_v85_apply, ReadP.val_main_cst_19_apply]; exact Ideal.ofBits_zero_f32
  have h87 : ReadP.val_main_v87 (F := Ideal) x0 x1 x4 x5 x6 (ix2 n k)
      = Ideal.hostScatterAdd dS (ReadP.val_main_v85 (F := Ideal)) (ReadP.val_main_v86 (F := Ideal) x1)
          (ReadP.val_main_v84 (F := Ideal) x0 x1 x4 x5 x6) (ix2 n k) := rfl
  rw [ReadP.val_main_v91_apply, ReadP.val_main_v90_apply, hz, hb, h87, h85, v86_eq, upd2, ← core]
  rw [← tab_lin2 x0 x1 x4 x5 x6]
  rfl

end Cert.Bridge

end
-- ==== Proof.ValueEq.lean ====
import proofs.«407291_j19164144075375_2_alg».proof.Proof.KI.Run
import proofs.«407291_j19164144075375_2_alg».proof.Proof.RefReadP
import proofs.«407291_j19164144075375_2_alg».proof.Proof.Val.KIdxEq
import proofs.«407291_j19164144075375_2_alg».proof.Proof.Val.ChainB
import proofs.«407291_j19164144075375_2_alg».proof.Proof.Alg.BridgeB
import proofs.«407291_j19164144075375_2_alg».proof.Proof.Val.ChainA
import proofs.«407291_j19164144075375_2_alg».proof.Proof.Alg.BridgeA

noncomputable section

namespace Cert.Bridge

open Idealize.ShloMosaic Idealize.SL.Sem Idealize.ShloMosaic.ValueIdx

theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.KernelIdeal.Hand.W11 m ρ c (Proc.devRef .tc Cert.KernelIdeal.main_v52) = Cert.ReferenceIdeal.ValueP.res_main_v116 m' c := by
  obtain ⟨h0, h1, h2, h3, h4, h5, h6, h7, h8, h9, h10, h11⟩ := hagree
  refine Eq.trans ?_ (Cert.ReferenceIdeal.ReadP.val_main_v116_eq m' c).symm
  rw [h0, h1, h2, h3, h4, h5, h6, h7, h8, h9, h10, h11]
  funext i
  obtain ⟨g, a, rfl⟩ : ∃ (g : Fin 64) (a : Fin 8), i = ix2 g a := ⟨i 0, i 1, eq_ix2 i⟩
  refine (Cert.KernelIdeal.Hand.chainB m ρ c _ _ (fun n k => Cert.KernelIdeal.Hand.V7_v38 m ρ c n k) (fun n => Cert.KernelIdeal.Hand.V7_v15 m ρ c n)
    (fun k => Cert.KernelIdeal.Hand.V7_v40 m ρ c k) (fun n => Cert.KernelIdeal.Hand.V7_v39 m ρ c n) g a).trans ?_
  refine Cert.Bridge.tail _ _ _ _ _ _ _ _ _ _ _ _ _ (fun n k => ?_) g a
  rw [kCol_eq, kRowW_eq, kS_eq, gatherRows_eq, scatterRows_eq]
  exact Cert.Bridge.layer2 _ _ _ _ _ _ n k

end Cert.Bridge

end
-- ==== Proof.Final.lean ====
import proofs.«407291_j19164144075375_2_alg».proof.Defs
import proofs.«407291_j19164144075375_2_alg».proof.Proof.Gen.Kernel
import proofs.«407291_j19164144075375_2_alg».proof.Proof.Gen.KernelIdeal
import proofs.«407291_j19164144075375_2_alg».proof.Proof.Gen.ReferenceIdeal
import proofs.«407291_j19164144075375_2_alg».proof.Proof.Gen.Pre_finite_inputs
import proofs.«407291_j19164144075375_2_alg».proof.Proof.KI.Run
import proofs.«407291_j19164144075375_2_alg».proof.Proof.RefReadP
import proofs.«407291_j19164144075375_2_alg».proof.Proof.ValueEq

noncomputable section

namespace Cert.Proof.Parts

open Idealize.ShloMosaic Idealize.SL.Sem

-- Kernel and KernelIdeal are the same program text, equal case by case.
set_option maxHeartbeats 1000000 in
theorem defs₀_eq {F : FTy → Type} [FloatOps F] : Cert.Kernel.defs₀ (F := F) = Cert.KernelIdeal.defs₀ (F := F) := by
  unfold Cert.Kernel.defs₀ Cert.KernelIdeal.defs₀
  congr 1
  funext l a
  match l, a with
  | 0, (t, s) => rfl
  | 1, (t, s) => rfl
  | 2, (t, s) => rfl
  | 3, (t, s) => rfl

set_option maxHeartbeats 4000000 in
theorem frame_k : Cert.frame_Kernel := fun m ρ _ => by
  unfold Cert.Kernel.defs
  rw [defs₀_eq]
  exact (θ_run _ _ _).mono (fun _ h c => (h c).2) (Cert.KernelIdeal.Hand.run_value (F := Bits) m ρ)

theorem frame_ki : Cert.frame_KernelIdeal := fun m ρ _ =>
  (θ_run _ _ _).mono (fun _ h c => (h c).2) (Cert.KernelIdeal.Hand.run_value (F := Ideal) m ρ)

theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.Bridge.value_eq m ρ m' c (hagree c)).symm

end Cert.Proof.Parts

end
-- ==== Proof.lean ====
import proofs.«407291_j19164144075375_2_alg».proof.Defs
import proofs.«407291_j19164144075375_2_alg».proof.Proof.Final

noncomputable section

namespace Cert.Proof

theorem claim : Cert.Claim :=
  ⟨Cert.Kernel.Gen.facts, Cert.KernelIdeal.Gen.facts, Cert.ReferenceIdeal.Gen.facts, Cert.Pre_finite_inputs.Gen.facts,
    Parts.frame_k, Parts.frame_ki, Parts.frame_ri, Parts.preserves, Parts.algebraic⟩

end Cert.Proof

end
